-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S20 : Shape := ⟨1, ![20]⟩
abbrev S1x512x1024 : Shape := ⟨3, ![1, 512, 1024]⟩
abbrev S512x1024 : Shape := ⟨2, ![512, 1024]⟩
abbrev S1 : Shape := ⟨1, ![1]⟩
abbrev S1x256x1024 : Shape := ⟨3, ![1, 256, 1024]⟩
abbrev S512x1 : Shape := ⟨2, ![512, 1]⟩
abbrev S256x1024 : Shape := ⟨2, ![256, 1024]⟩
abbrev S512x256 : Shape := ⟨2, ![512, 256]⟩
abbrev S512 : Shape := ⟨1, ![512]⟩

abbrev nBuf : Space → Nat
  | .hbm => 11
  | .vmem => 22
  | .smem => 2
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x2048x1024, .bf16⟩
  | .hbm, ⟨8, _⟩ => ⟨S4x2048x1024, .bf16⟩
  | .hbm, ⟨9, _⟩ => ⟨S4x2048x1024, .bf16⟩
  | .hbm, ⟨10, _⟩ => ⟨S4x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x512x1024, .f32⟩
  | .local _ .vmem, ⟨18, _⟩ => ⟨S1x512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | .local _ .smem, ⟨0, _⟩ => ⟨S20, .i32⟩
  | .local _ .smem, ⟨1, _⟩ => ⟨S20, .i32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 20], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v0 : Index := Scalar.indexCast arg1
  ![v0.toNat]
def k1_cond4 (v1 : BitVec 32) (v3 : BitVec 32) : BitVec 1 :=
  let c2_i32_3 : BitVec 32 := 2#32
  let c1_i32 : BitVec 32 := 1#32
  let v14 : BitVec 32 := Scalar.addi v1 c1_i32
  let v15 : BitVec 32 := Scalar.muli c2_i32_3 v14
  let c1_i32_4 : BitVec 32 := 1#32
  let v16 : BitVec 32 := Scalar.subi v15 c1_i32_4
  let v17 : BitVec 1 := Scalar.cmpi .eq v3 v16
  let v18 : BitVec 32 := Scalar.extui v17
  let c0_i32_5 : BitVec 32 := 0#32
  let v19 : BitVec 1 := Scalar.cmpi .ne v18 c0_i32_5
  v19

def cc1_transform_0 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_1 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_2 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k1_off1_inb i)) numel1_S1
  let c0_i32 : BitVec 32 := 0#32
  let c0_i32_0 : BitVec 32 := 0#32
  ![arg0.toNat, v1.toNat, c0_i32.toNat]

def cc1_transform_3 (k1_off1_inb : ∀ i : grid1.Coords, ∀ a, (k1_off1 i) a + S1.size a ≤ S20.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S20) ![v0.toNat] S1.size (k1_off1_inb i)) numel1_S1
  let c0_i32 : BitVec 32 := 0#32
  let c0_i32_0 : BitVec 32 := 0#32
  ![arg0.toNat, v1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S1x512x1024 : S512x1024.ShapeCasts S1x512x1024
  packedbf16_S1x512x1024_S1x512x1024_0_0_0 : (Rect.unit (s := S1x512x1024) ![0, 0, 0] S1x512x1024.size inb_S1x512x1024_S1x512x1024_0_0_0).PackedRows (EltTy.packing .bf16)
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S512x256_S512 : S512x256.Reduces [1] S512
  shapeCasts_S512_S512x1 : S512.ShapeCasts S512x1
  broadcasts_S512x1_S512x256 : S512x1.Broadcasts S512x256
  broadcasts_S512x1_S512x1024 : S512x1.Broadcasts S512x1024
  iota_S512x256_d0_w32 : S512x256.Iotas .tc 32 [0]
  iota_S512x256_d1_w32 : S512x256.Iotas .tc 32 [1]
  dot_S512x1024_S1024x1024_S512x1024_1_0_0_1_n_n_wf : DotDims.WF S512x1024 S1024x1024 S512x1024 [1] [0] [0] [1] [] []
  dot_S512x1024_S256x1024_S512x256_1_1_0_0_n_n_wf : DotDims.WF S512x1024 S256x1024 S512x256 [1] [1] [0] [0] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S4x2048x1024.size a
  hwx0_0 : ∀ i : grid0.Coords, EltTy.bits .f32 = 32 ∨ (Rect.block (s := S4x2048x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S4x2048x1024.size a
  hwx0_4 : ∀ i : grid0.Coords, EltTy.bits .bf16 = 32 ∨ (Rect.block (s := S4x2048x1024) S1x512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S4x2048x1024.size a
  hwx0_5 : ∀ i : grid0.Coords, EltTy.bits .bf16 = 32 ∨ (Rect.block (s := S4x2048x1024) S1x512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x1024.size a ≤ S4x2048x1024.size a
  hwx0_6 : ∀ i : grid0.Coords, EltTy.bits .bf16 = 32 ∨ (Rect.block (s := S4x2048x1024) S1x512x1024.size (cc0_transform_6 i) (hinb0_6 i)).WholeWords (EltTy.packing .bf16)
  hrank1 : 0 < grid1.rank
  k1_off1_inb : ∀ i : grid1.Coords, ∀ a, (k1_off1 i) a + S1.size a ≤ S20.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S1x512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev spec1_0 : Pipeline.WinSpec sig grid1.rank :=
  Pipeline.WinSpec.ofSpec (Memref.whole main_v3_0) S1x512x1024.size reads1_0 false false 2 stage1_0 sem1_0 nbuf1_0 hstage1_0

abbrev spec1_1 : Pipeline.WinSpec sig grid1.rank :=
  Pipeline.WinSpec.ofSpec (Memref.whole main_v3_1) S1x256x1024.size reads1_1 false false 2 stage1_1 sem1_1 nbuf1_1 hstage1_1

abbrev spec1_2 : Pipeline.WinSpec sig grid1.rank :=
  Pipeline.WinSpec.ofSpec (Memref.whole main_v3_2) S1x256x1024.size reads1_2 false false 2 stage1_2 sem1_2 nbuf1_2 hstage1_2

abbrev spec1_3 : Pipeline.WinSpec sig grid1.rank :=
  Pipeline.WinSpec.ofSpec (Memref.whole main_v4) S1x512x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x1024.size a ≤ S4x2048x1024.size a), EltTy.bits .bf16 = 32 ∨ (Rect.block (s := S4x2048x1024) S1x512x1024.size (cc1_transform_0 k1_off1_inb numel1_S1 pf i) h).WholeWords (EltTy.packing .bf16)) ∧
  (∀ i : grid1.Coords, ∃ h : (∀ a, (cc1_transform_1 k1_off1_inb numel1_S1 pf i a + 1) * S1x256x1024.size a ≤ S4x2048x1024.size a), EltTy.bits .bf16 = 32 ∨ (Rect.block (s := S4x2048x1024) S1x256x1024.size (cc1_transform_1 k1_off1_inb numel1_S1 pf i) h).WholeWords (EltTy.packing .bf16)) ∧
  (∀ i : grid1.Coords, ∃ h : (∀ a, (cc1_transform_2 k1_off1_inb numel1_S1 pf i a + 1) * S1x256x1024.size a ≤ S4x2048x1024.size a), EltTy.bits .bf16 = 32 ∨ (Rect.block (s := S4x2048x1024) S1x256x1024.size (cc1_transform_2 k1_off1_inb numel1_S1 pf i) h).WholeWords (EltTy.packing .bf16)) ∧
  (∀ i : grid1.Coords, ∃ h : (∀ a, (cc1_transform_3 k1_off1_inb numel1_S1 pf i a + 1) * S1x512x1024.size a ≤ S4x2048x1024.size a), EltTy.bits .f32 = 32 ∨ (Rect.block (s := S4x2048x1024) S1x512x1024.size (cc1_transform_3 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond4 (pf.atD 0 (k1_off1 i)) (pf.atD 1 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S2048x2048 : Shape := ⟨2, ![2048, 2048]⟩
abbrev S1x2048x2048 : Shape := ⟨3, ![1, 2048, 2048]⟩
abbrev S4x2048 : Shape := ⟨2, ![4, 2048]⟩
abbrev S4x2048x1 : Shape := ⟨3, ![4, 2048, 1]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .i1⟩
  | .hbm, ⟨13, _⟩ => ⟨S2048x2048, .i1⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S2048x2048, .i1⟩
  | .hbm, ⟨20, _⟩ => ⟨S_, .i1⟩
  | .hbm, ⟨21, _⟩ => ⟨S2048x2048, .i1⟩
  | .hbm, ⟨22, _⟩ => ⟨S2048x2048, .i1⟩
  | .hbm, ⟨23, _⟩ => ⟨S1x2048x2048, .i1⟩
  | .hbm, ⟨24, _⟩ => ⟨S_, .f32⟩
  | .hbm, ⟨25, _⟩ => ⟨S_, .f32⟩
  | .hbm, ⟨26, _⟩ => ⟨S4x2048x2048, .i1⟩
  | .hbm, ⟨27, _⟩ => ⟨S4x2048x2048, .f32⟩
  | .hbm, ⟨28, _⟩ => ⟨S4x2048x2048, .f32⟩
  | .hbm, ⟨29, _⟩ => ⟨S_, .f32⟩
  | .hbm, ⟨30, _⟩ => ⟨S4x2048, .f32⟩
  | .hbm, ⟨31, _⟩ => ⟨S_, .f32⟩
  | .hbm, ⟨32, _⟩ => ⟨S4x2048, .f32⟩
  | .hbm, ⟨33, _⟩ => ⟨S4x2048, .f32⟩
  | .hbm, ⟨34, _⟩ => ⟨S4x2048x1, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c_0 : Ref sig .tc := ⟨.hbm, 20, rfl⟩
abbrev main_call0_v5 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.KProj.lean ====
/- Each block of 512 embedding rows is multiplied by each of the three weight matrices; the three products are the
   corresponding blocks of q, k and v. -/
import proofs.«401152_j23330262351892_3_alg».proof.Proof.Gen.Kernel.Launch
import proofs.«401152_j23330262351892_3_alg».proof.Proof.Gen.Kernel.Skeleton
import proofs.«401152_j23330262351892_3_alg».proof.Proof.Gen.Kernel.Points
import Idealize.ShloMosaic.Lib.Pipeline.FrameBody
import Idealize.ShloMosaic.Lib.Pipeline.Regions
import Idealize.ShloMosaic.Lib.Tactic
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rBlk : Rect S1x512x1024 := Rect.unit (s := S1x512x1024) ![0, 0, 0] S1x512x1024.size inb_S1x512x1024_S1x512x1024_0_0_0
abbrev rWgt : Rect S1024x1024 := Rect.unit (s := S1024x1024) ![0, 0] S1024x1024.size inb_S1024x1024_S1024x1024_0_0

theorem ld_rBlk (X : Vec F S1x512x1024 .f32) : View.ld X rBlk = X :=
  View.ld_unit_zero (funext fun a => by fin_cases a <;> rfl) _ X

theorem ld_rWgt (X : Vec F S1024x1024 .bf16) : View.ld X rWgt = X :=
  View.ld_unit_zero (funext fun a => by fin_cases a <;> rfl) _ X

def projStore (pay : Vec F S1x512x1024 .bf16) : Vec F S1x512x1024 .bf16 :=
  View.canon [⟨rBlk, pay⟩]

set_option maxHeartbeats 1000000 in
/-- The four inputs are unchanged, and each output becomes the product of the block with its weight matrix. -/
theorem sound_kernel0 (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (projStore (k0_pay2 x0 x1))
            ∗ owns (c : Thread nD τ) arg7 fullShare (projStore (k0_pay3 x0 x2))
            ∗ owns (c : Thread nD τ) arg8 fullShare (projStore (k0_pay4 x0 x3))) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]; swap; isplitl [H1]; swap; isplitl [H2]; swap; isplitl [H3]; swap; isplitl [H4]; swap; isplitl [H5]
  all_goals
    iexists _; isplitr
    swap; · iassumption
    ipureintro
    first
    | rw [View.readAt_eq_ld, View.readAt_eq_ld, ld_rBlk, ld_rWgt]; exact View.read_writes_eq_canon _ _ _ (View.cover_of_tiled _ S1x512x1024.size (by rfl))
    | rfl

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => projStore (k0_pay2 (blk0 V c 0 t) (blk0 V c 1 t))
    | ⟨5, _⟩ => projStore (k0_pay3 (blk0 V c 0 t) (blk0 V c 2 t))
    | ⟨6, _⟩ => projStore (k0_pay4 (blk0 V c 0 t) (blk0 V c 3 t))
  Φ _ := Pipeline.ΦA spec0 c
  q _ := fullShare
  owed _ := 0

theorem dat0_after0 (c : Dev nD) (t : Fin cfg0.N) : (dat0 V c).after 0 t = blk0 V c 0 t := rfl
theorem dat0_after1 (c : Dev nD) (t : Fin cfg0.N) : (dat0 V c).after 1 t = blk0 V c 1 t := rfl
theorem dat0_after2 (c : Dev nD) (t : Fin cfg0.N) : (dat0 V c).after 2 t = blk0 V c 2 t := rfl
theorem dat0_after3 (c : Dev nD) (t : Fin cfg0.N) : (dat0 V c).after 3 t = blk0 V c 3 t := rfl
theorem dat0_after4 (c : Dev nD) (t : Fin cfg0.N) :
    (dat0 V c).after 4 t = projStore (k0_pay2 (blk0 V c 0 t) (blk0 V c 1 t)) := by dsimp only [dat0]
theorem dat0_after5 (c : Dev nD) (t : Fin cfg0.N) :
    (dat0 V c).after 5 t = projStore (k0_pay3 (blk0 V c 0 t) (blk0 V c 2 t)) := by dsimp only [dat0]
theorem dat0_after6 (c : Dev nD) (t : Fin cfg0.N) :
    (dat0 V c).after 6 t = projStore (k0_pay4 (blk0 V c 0 t) (blk0 V c 3 t)) := by dsimp only [dat0]

theorem dat0_before0 (c : Dev nD) (t : Fin cfg0.N) (d) : (dat0 V c).before 0 t d = blk0 V c 0 t :=
  (dat0 V c).before_in_eq_fetched 0 rfl (fun _ => rfl) (fun _ _ _ => rfl) (fun _ => rfl) t d
theorem dat0_before1 (c : Dev nD) (t : Fin cfg0.N) (d) : (dat0 V c).before 1 t d = blk0 V c 1 t :=
  (dat0 V c).before_in_eq_fetched 1 rfl (fun _ => rfl) (fun _ _ _ => rfl) (fun _ => rfl) t d
theorem dat0_before2 (c : Dev nD) (t : Fin cfg0.N) (d) : (dat0 V c).before 2 t d = blk0 V c 2 t :=
  (dat0 V c).before_in_eq_fetched 2 rfl (fun _ => rfl) (fun _ _ _ => rfl) (fun _ => rfl) t d
theorem dat0_before3 (c : Dev nD) (t : Fin cfg0.N) (d) : (dat0 V c).before 3 t d = blk0 V c 3 t :=
  (dat0 V c).before_in_eq_fetched 3 rfl (fun _ => rfl) (fun _ _ _ => rfl) (fun _ => rfl) t d

def chain0 (Φ : Fin cfg0.W → sProp 𝕄) : sProp 𝕄 :=
  iprop(Φ 0 ∗ Φ 1 ∗ Φ 2 ∗ Φ 3 ∗ Φ 4 ∗ Φ 5 ∗ Φ 6)

def bodyPre0 (c : Dev nD) (t : Fin cfg0.N) : sProp 𝕄 :=
  iprop((dat0 V c).Φ t.castSucc ∗ (dat0 V c).owesAt () t.castSucc ∗ chain0 fun w =>
    iprop(∃ d, owns (c : Thread nD τ) ((cfg0.win w).stage (cfg0.slots t w)) fullShare ((dat0 V c).before w t d)))

def bodyPost0 (c : Dev nD) (t : Fin cfg0.N) : sProp 𝕄 :=
  iprop((dat0 V c).Φ t.succ ∗ (dat0 V c).owesAt () t.succ ∗ chain0 fun w =>
    owns (c : Thread nD τ) ((cfg0.win w).stage (cfg0.slots t w)) fullShare ((dat0 V c).after w t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0 chain0
  simp only [dat0_before0, dat0_before1, dat0_before2, dat0_before3]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (blk0 V c 0 t) (blk0 V c 1 t) (blk0 V c 2 t) (blk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.Kernel.Hand
end
-- ==== Proof.KAttnWords.lean ====
/- What the five kinds of step share: the two tables, the word each holds at a step, and the four tests on those words. -/
import proofs.«401152_j23330262351892_3_alg».proof.Proof.Gen.Kernel.Launch
import proofs.«401152_j23330262351892_3_alg».proof.Proof.Gen.Kernel.Skeleton
import Idealize.ShloMosaic.Lib.Pipeline.FrameBody
import Idealize.ShloMosaic.Lib.Pipeline.Regions
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev tbQ : Memref sig .tc .smem S20 .i32 := Memref.whole main_c
abbrev htbQ : tbQ.IsWhole := Memref.isWhole_whole _
abbrev tbK : Memref sig .tc .smem S20 .i32 := Memref.whole main_c_0
abbrev htbK : tbK.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev wordAt (c : Dev nD) (M : Memref sig .tc .smem S20 .i32) (i : grid1.Coords) (xt : TbBuf (F := F) c M) : Elt F .i32 :=
  M.view.readAt (Elt F) (Rect.unit (s := S20) (k1_off1 i) S1.size (k1_off1_inb i)).toLoadRect xt (Shape.Idx.first (numel1_S1.symm ▸ Nat.one_pos))

abbrev isFirst (w3 : BitVec 32) : Prop := Scalar.cmpi .ne (Scalar.extui (Scalar.cmpi .eq w3 0#32)) 0#32 = 1#1
abbrev isPlain (w1 w3 : BitVec 32) : Prop := Scalar.cmpi .ne (Scalar.extui (Scalar.xori (Scalar.cmpi .sge w3 (Scalar.muli 2#32 w1)) 1#1)) 0#32 = 1#1
abbrev isDiag (w1 w3 : BitVec 32) : Prop := Scalar.cmpi .ne (Scalar.extui (Scalar.cmpi .sge w3 (Scalar.muli 2#32 w1))) 0#32 = 1#1
abbrev isLast (w1 w3 : BitVec 32) : Prop := k1_cond4 w1 w3 = 1#1

end Cert.Kernel.Hand

end
-- ==== Proof.KAttnRunA.lean ====
/- The body at the first step of the first query tile: the scratch is reset, then updated under the causal mask. -/
import proofs.«401152_j23330262351892_3_alg».proof.Proof.KAttnWords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirstDiag (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (h0 : isFirst (wordAt c tbK i xt1)) (h1 : ¬isPlain (wordAt c tbQ i xt0) (wordAt c tbK i xt1))
    (h2 : isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ (∃ d, owns (c : Thread nD τ) arg8 fullShare d) ∗ (∃ d, owns (c : Thread nD τ) arg9 fullShare d) ∗ (∃ d, owns (c : Thread nD τ) arg10 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%d8, %f8, -, H8⟩, ⟨%d9, %f9, -, H9⟩, ⟨%d10, %f10, -, H10⟩, Hk⟩
    obtain rfl := harg4.eq_unread hf4; obtain rfl := harg5.eq_unread hf5; obtain rfl := harg6.eq_unread hf6
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.Kernel.Hand

end
-- ==== Proof.KAttnRunB.lean ====
/- The body at the last step of a query tile: a masked update, then the output tile is the accumulator over the normaliser. -/
import proofs.«401152_j23330262351892_3_alg».proof.Proof.KAttnWords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runLast (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : ¬isPlain (wordAt c tbQ i xt0) (wordAt c tbK i xt1))
    (h2 : isDiag (wordAt c tbQ i xt0) (wordAt c tbK i xt1)) (h3 : isLast (wordAt c tbQ i xt0) (wordAt c tbK i xt1)) :
    { L : List (View.Piece (Elt F) S512x1 .f32) × List (View.Piece (Elt F) S512x1 .f32) × List (View.Piece (Elt F) S512x1024 .f32) × List (View.Piece (Elt F) S1x512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa ∗ (∃ d, owns (c : Thread nD τ) arg7 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2.1)
                ∗ (∃ f, arg7.view.loc (c : Thread nD τ) ↦[arg7.view.set]{fullShare} arg7.view.writes (Elt F) f L.2.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, ⟨%d7, %f7, -, H7⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    iexists _; iexact H7

end Cert.Kernel.Hand

end
-- ==== Proof.KAttnRunC.lean ====
/- The body at the first step of a later query tile: the scratch is reset, then updated with no mask. -/
import proofs.«401152_j23330262351892_3_alg».proof.Proof.KAttnWords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runFirstPlain (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (h0 : isFirst (wordAt c tbK i xt1)) (h1 : isPlain (wordAt c tbQ i xt0) (wordAt c tbK i xt1))
    (h2 : ¬isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ (∃ d, owns (c : Thread nD τ) arg8 fullShare d) ∗ (∃ d, owns (c : Thread nD τ) arg9 fullShare d) ∗ (∃ d, owns (c : Thread nD τ) arg10 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part1_eq_skeleton]
    unfold owns
    iintro ⟨HT0, HT1, ⟨%f4, %hf4, H4⟩, ⟨%f5, %hf5, H5⟩, ⟨%f6, %hf6, H6⟩, ⟨%d8, %f8, -, H8⟩, ⟨%d9, %f9, -, H9⟩, ⟨%d10, %f10, -, H10⟩, Hk⟩
    obtain rfl := harg4.eq_unread hf4; obtain rfl := harg5.eq_unread hf5; obtain rfl := harg6.eq_unread hf6
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.Kernel.Hand

end
-- ==== Proof.KAttnRunD.lean ====
/- The body at a step that only updates: no reset, no mask, no output. -/
import proofs.«401152_j23330262351892_3_alg».proof.Proof.KAttnWords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runPlain (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : isPlain (wordAt c tbQ i xt0) (wordAt c tbK i xt1))
    (h2 : ¬isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part1_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.Kernel.Hand

end
-- ==== Proof.KAttnRunE.lean ====
/- The body at the first of the two steps on the diagonal: a masked update, no reset, no output. -/
import proofs.«401152_j23330262351892_3_alg».proof.Proof.KAttnWords

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runDiag (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : ¬isPlain (wordAt c tbQ i xt0) (wordAt c tbK i xt1))
    (h2 : isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.Kernel.Hand

end
-- ==== Proof.KCovers.lean ====
/- Every kind of step stores each buffer it writes whole: its pieces tile the buffer. -/
import proofs.«401152_j23330262351892_3_alg».proof.Proof.KAttnRunA
import proofs.«401152_j23330262351892_3_alg».proof.Proof.KAttnRunB
import proofs.«401152_j23330262351892_3_alg».proof.Proof.KAttnRunC
import proofs.«401152_j23330262351892_3_alg».proof.Proof.KAttnRunD
import proofs.«401152_j23330262351892_3_alg».proof.Proof.KAttnRunE

noncomputable section

namespace Cert.Kernel.Hand

open Cert.Kernel Cert.Kernel.Gen
open Idealize.ShloMosaic Idealize.ShloMosaic.TcCoe Idealize.ShloMosaic.Tactic

variable {F : FTy → Type} [FloatOps F] (c : Dev nD) (i : grid1.Coords)
  (arg4 : Memref sig .tc .vmem S1x512x1024 .bf16) (harg4 : arg4.IsWhole) (arg5 : Memref sig .tc .vmem S1x256x1024 .bf16) (harg5 : arg5.IsWhole)
  (arg6 : Memref sig .tc .vmem S1x256x1024 .bf16) (harg6 : arg6.IsWhole) (arg7 : Memref sig .tc .vmem S1x512x1024 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1024 .f32) (harg10 : arg10.IsWhole)
  (xt0 : TbBuf (F := F) c tbQ) (xt1 : TbBuf (F := F) c tbK)
  (xq : Vec F S1x512x1024 .bf16) (xk : Vec F S1x256x1024 .bf16) (xv : Vec F S1x256x1024 .bf16)

section
variable (h0 : isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem coverFirstDiag_m (y : S512x1.Idx) : ∃ pc ∈ (runFirstDiag c i arg4 harg4 arg5 harg5 arg6 harg6 arg7 harg7 arg8 harg8 arg9 harg9 arg10 harg10 xt0 xt1 xq xk xv h0 h1 h2 h3).1.1, y ∈ pc.1.set :=
  View.cover_of_tiledL _ S512x1.size (by sl_kernel_rfl) y
theorem coverFirstDiag_l (y : S512x1.Idx) : ∃ pc ∈ (runFirstDiag c i arg4 harg4 arg5 harg5 arg6 harg6 arg7 harg7 arg8 harg8 arg9 harg9 arg10 harg10 xt0 xt1 xq xk xv h0 h1 h2 h3).1.2.1, y ∈ pc.1.set :=
  View.cover_of_tiledL _ S512x1.size (by sl_kernel_rfl) y
theorem coverFirstDiag_a (y : S512x1024.Idx) : ∃ pc ∈ (runFirstDiag c i arg4 harg4 arg5 harg5 arg6 harg6 arg7 harg7 arg8 harg8 arg9 harg9 arg10 harg10 xt0 xt1 xq xk xv h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : isLast (wordAt c tbQ i xt0) (wordAt c tbK i xt1))
theorem coverLast_m (y : S512x1.Idx) : ∃ pc ∈ (runLast c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverLast_l (y : S512x1.Idx) : ∃ pc ∈ (runLast c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverLast_a (y : S512x1024.Idx) : ∃ pc ∈ (runLast c i arg4 harg4 arg5 harg5 arg6 harg6 arg7 harg7 arg8 harg8 arg9 harg9 arg10 harg10 xt0 xt1 xq xk xv sm sl sa h0 h1 h2 h3).1.2.2.1, y ∈ pc.1.set :=
  View.cover_of_tiledL _ S512x1024.size (by sl_kernel_rfl) y
theorem coverLast_o (y : S1x512x1024.Idx) : ∃ pc ∈ (runLast c i arg4 harg4 arg5 harg5 arg6 harg6 arg7 harg7 arg8 harg8 arg9 harg9 arg10 harg10 xt0 xt1 xq xk xv sm sl sa h0 h1 h2 h3).1.2.2.2, y ∈ pc.1.set :=
  View.cover_of_tiledL _ S1x512x1024.size (by sl_kernel_rfl) y
end

section
variable (h0 : isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem coverFirstPlain_m (y : S512x1.Idx) : ∃ pc ∈ (runFirstPlain c i arg4 harg4 arg5 harg5 arg6 harg6 arg7 harg7 arg8 harg8 arg9 harg9 arg10 harg10 xt0 xt1 xq xk xv h0 h1 h2 h3).1.1, y ∈ pc.1.set :=
  View.cover_of_tiledL _ S512x1.size (by sl_kernel_rfl) y
theorem coverFirstPlain_l (y : S512x1.Idx) : ∃ pc ∈ (runFirstPlain c i arg4 harg4 arg5 harg5 arg6 harg6 arg7 harg7 arg8 harg8 arg9 harg9 arg10 harg10 xt0 xt1 xq xk xv h0 h1 h2 h3).1.2.1, y ∈ pc.1.set :=
  View.cover_of_tiledL _ S512x1.size (by sl_kernel_rfl) y
theorem coverFirstPlain_a (y : S512x1024.Idx) : ∃ pc ∈ (runFirstPlain c i arg4 harg4 arg5 harg5 arg6 harg6 arg7 harg7 arg8 harg8 arg9 harg9 arg10 harg10 xt0 xt1 xq xk xv h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem coverPlain_m (y : S512x1.Idx) : ∃ pc ∈ (runPlain c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverPlain_l (y : S512x1.Idx) : ∃ pc ∈ (runPlain c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverPlain_a (y : S512x1024.Idx) : ∃ pc ∈ (runPlain c i arg4 harg4 arg5 harg5 arg6 harg6 arg7 harg7 arg8 harg8 arg9 harg9 arg10 harg10 xt0 xt1 xq xk xv sm sl sa h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem coverDiag_m (y : S512x1.Idx) : ∃ pc ∈ (runDiag c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverDiag_l (y : S512x1.Idx) : ∃ pc ∈ (runDiag c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverDiag_a (y : S512x1024.Idx) : ∃ pc ∈ (runDiag c i arg4 harg4 arg5 harg5 arg6 harg6 arg7 harg7 arg8 harg8 arg9 harg9 arg10 harg10 xt0 xt1 xq xk xv sm sl sa h0 h1 h2 h3).1.2.2, y ∈ pc.1.set :=
  View.cover_of_tiledL _ S512x1024.size (by sl_kernel_rfl) y
end

end Cert.Kernel.Hand

end
-- ==== Proof.KAttnCore.lean ====
/- The attention region, step by step, at the tables the program holds: the grid is 4 batches by 20 steps, step s of a batch
   being the s-th (query tile, key tile) pair on or under the diagonal; what the running maximum, the normaliser, the accumulator
   and the output tile hold after each step is defined by recursion on the step. -/
import proofs.«401152_j23330262351892_3_alg».proof.Proof.KCovers
import Idealize.ShloMosaic.PureOps.Ideal
import Idealize.ShloMosaic.PureOps.BitExact

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Bits

local notation "𝕄" => MT nD τ sig Unit (Elt 𝔽) ℕ (UR sig nD τ) ℕ

/-- The two tables: the query tile and the key tile of each of the 20 steps of a batch. -/
def tbl : pre1.Contents (Elt 𝔽) := fun j => match j with
  | ⟨0, _⟩ => fun i => lit0 (S20.rowMajor i)
  | ⟨1, _⟩ => fun i => lit1 (S20.rowMajor i)

theorem tbl_ok : ok1 (F := 𝔽) tbl := by decide +kernel

abbrev adm1 : (pcfg1 (F := 𝔽)).Adm := ⟨tbl, tbl_ok⟩
abbrev cfgA : Pipeline.Cfg sig Λ₀ := cfg1 adm1

theorem N_A : cfgA.N = 80 := by decide +kernel

inductive Kind | firstDiag | last | firstPlain | plain | diag
  deriving DecidableEq

/-- Which of the five things a step does, read off its position in the batch. -/
def kindOf (s : ℕ) : Kind :=
  if s = 0 then .firstDiag
  else if s = 1 ∨ s = 5 ∨ s = 11 ∨ s = 19 then .last
  else if s = 2 ∨ s = 6 ∨ s = 12 then .firstPlain
  else if s = 4 ∨ s = 10 ∨ s = 18 then .diag
  else .plain

abbrev wq (c : Dev nD) (t : Fin cfgA.N) : Elt 𝔽 .i32 := wordAt (F := 𝔽) c tbQ (cfgA.grid.coords t) (tbl 0)
abbrev wk (c : Dev nD) (t : Fin cfgA.N) : Elt 𝔽 .i32 := wordAt (F := 𝔽) c tbK (cfgA.grid.coords t) (tbl 1)

theorem tests_firstDiag : ∀ (c : Dev nD) (t : Fin cfgA.N), kindOf (t.val % 20) = .firstDiag →
    isFirst (wk c t) ∧ ¬isPlain (wq c t) (wk c t) ∧ isDiag (wq c t) (wk c t) ∧ ¬isLast (wq c t) (wk c t) := by decide +kernel
theorem tests_last : ∀ (c : Dev nD) (t : Fin cfgA.N), kindOf (t.val % 20) = .last →
    ¬isFirst (wk c t) ∧ ¬isPlain (wq c t) (wk c t) ∧ isDiag (wq c t) (wk c t) ∧ isLast (wq c t) (wk c t) := by decide +kernel
theorem tests_firstPlain : ∀ (c : Dev nD) (t : Fin cfgA.N), kindOf (t.val % 20) = .firstPlain →
    isFirst (wk c t) ∧ isPlain (wq c t) (wk c t) ∧ ¬isDiag (wq c t) (wk c t) ∧ ¬isLast (wq c t) (wk c t) := by decide +kernel
theorem tests_plain : ∀ (c : Dev nD) (t : Fin cfgA.N), kindOf (t.val % 20) = .plain →
    ¬isFirst (wk c t) ∧ isPlain (wq c t) (wk c t) ∧ ¬isDiag (wq c t) (wk c t) ∧ ¬isLast (wq c t) (wk c t) := by decide +kernel
theorem tests_diag : ∀ (c : Dev nD) (t : Fin cfgA.N), kindOf (t.val % 20) = .diag →
    ¬isFirst (wk c t) ∧ ¬isPlain (wq c t) (wk c t) ∧ isDiag (wq c t) (wk c t) ∧ ¬isLast (wq c t) (wk c t) := by decide +kernel

theorem out_idle : ∀ t : Fin cfgA.N, kindOf (t.val % 20) ≠ .last → cfgA.idle 3 (cfgA.grid.coords t) = true ∧ (cfgA.win 3).flush t = false := by decide +kernel
theorem out_live : ∀ t : Fin cfgA.N, kindOf (t.val % 20) = .last → cfgA.idle 3 (cfgA.grid.coords t) = false := by decide +kernel
theorem in_live0 : ∀ t : Fin cfgA.N, cfgA.idle 0 (cfgA.grid.coords t) = false := fun _ => rfl
theorem in_live1 : ∀ t : Fin cfgA.N, cfgA.idle 1 (cfgA.grid.coords t) = false := fun _ => rfl
theorem in_live2 : ∀ t : Fin cfgA.N, cfgA.idle 2 (cfgA.grid.coords t) = false := fun _ => rfl

variable (V : (c : Dev nD) → (b : Ref sig .tc) → Buf (Elt 𝔽) ((c : Thread nD τ).loc b))

/-- Window w's block at step t, read off its array as the region finds it. -/
def blk1 (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef spec1 w))

abbrev msQ (t : Fin cfgA.N) : Memref sig .tc .vmem S1x512x1024 .bf16 := spec1_0.stage (cfgA.slots t 0)
abbrev hsQ (t : Fin cfgA.N) : (msQ t).IsWhole := hstage1_0 ((cfgA.slots t 0).cast nbuf1_0)
abbrev msK (t : Fin cfgA.N) : Memref sig .tc .vmem S1x256x1024 .bf16 := spec1_1.stage (cfgA.slots t 1)
abbrev hsK (t : Fin cfgA.N) : (msK t).IsWhole := hstage1_1 ((cfgA.slots t 1).cast nbuf1_1)
abbrev msV (t : Fin cfgA.N) : Memref sig .tc .vmem S1x256x1024 .bf16 := spec1_2.stage (cfgA.slots t 2)
abbrev hsV (t : Fin cfgA.N) : (msV t).IsWhole := hstage1_2 ((cfgA.slots t 2).cast nbuf1_2)
abbrev msO (t : Fin cfgA.N) : Memref sig .tc .vmem S1x512x1024 .f32 := spec1_3.stage (cfgA.slots t 3)
abbrev hsO (t : Fin cfgA.N) : (msO t).IsWhole := hstage1_3 ((cfgA.slots t 3).cast nbuf1_3)

abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev hscM : scM.IsWhole := Memref.isWhole_whole _
abbrev hscL : scL.IsWhole := Memref.isWhole_whole _
abbrev hscA : scA.IsWhole := Memref.isWhole_whole _
abbrev VM : View sig .tc .vmem S512x1 .f32 := scM.view
abbrev VL : View sig .tc .vmem S512x1 .f32 := scL.view
abbrev VA : View sig .tc .vmem S512x1024 .f32 := scA.view
abbrev VO : View sig .tc .vmem S1x512x1024 .f32 := (Memref.whole cc1_stg3_0 : Memref sig .tc .vmem S1x512x1024 .f32).view

abbrev backM (L : List (View.Piece (Elt 𝔽) S512x1 .f32)) : Vec 𝔽 S512x1 .f32 := VM.read (Elt 𝔽) (VM.writes (Elt 𝔽) VM.junk L)
abbrev backL (L : List (View.Piece (Elt 𝔽) S512x1 .f32)) : Vec 𝔽 S512x1 .f32 := VL.read (Elt 𝔽) (VL.writes (Elt 𝔽) VL.junk L)
abbrev backA (L : List (View.Piece (Elt 𝔽) S512x1024 .f32)) : Vec 𝔽 S512x1024 .f32 := VA.read (Elt 𝔽) (VA.writes (Elt 𝔽) VA.junk L)
abbrev backO (L : List (View.Piece (Elt 𝔽) S1x512x1024 .f32)) : Vec 𝔽 S1x512x1024 .f32 := VO.read (Elt 𝔽) (VO.writes (Elt 𝔽) VO.junk L)

/-- What the output tile, the running maximum, the normaliser and the accumulator hold after a step. -/
structure St where
  o : Vec 𝔽 S1x512x1024 .f32
  m : Vec 𝔽 S512x1 .f32
  l : Vec 𝔽 S512x1 .f32
  a : Vec 𝔽 S512x1024 .f32

def St.any : St := ⟨backO [], backM [], backL [], backA []⟩

abbrev RFirstDiag (c : Dev nD) (t : Fin cfgA.N) (hk : kindOf (t.val % 20) = .firstDiag) :=
  runFirstDiag (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t)
    (tests_firstDiag c t hk).1 (tests_firstDiag c t hk).2.1 (tests_firstDiag c t hk).2.2.1 (tests_firstDiag c t hk).2.2.2
abbrev RFirstPlain (c : Dev nD) (t : Fin cfgA.N) (hk : kindOf (t.val % 20) = .firstPlain) :=
  runFirstPlain (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t)
    (tests_firstPlain c t hk).1 (tests_firstPlain c t hk).2.1 (tests_firstPlain c t hk).2.2.1 (tests_firstPlain c t hk).2.2.2
abbrev RPlain (c : Dev nD) (t : Fin cfgA.N) (hk : kindOf (t.val % 20) = .plain) (p : St) :=
  runPlain (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_plain c t hk).1 (tests_plain c t hk).2.1 (tests_plain c t hk).2.2.1 (tests_plain c t hk).2.2.2
abbrev RDiag (c : Dev nD) (t : Fin cfgA.N) (hk : kindOf (t.val % 20) = .diag) (p : St) :=
  runDiag (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_diag c t hk).1 (tests_diag c t hk).2.1 (tests_diag c t hk).2.2.1 (tests_diag c t hk).2.2.2
abbrev RLast (c : Dev nD) (t : Fin cfgA.N) (hk : kindOf (t.val % 20) = .last) (p : St) :=
  runLast (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_last c t hk).1 (tests_last c t hk).2.1 (tests_last c t hk).2.2.1 (tests_last c t hk).2.2.2

/-- One step from the state p the step before left: each buffer read back from what the step's run stored. -/
def stepSt (c : Dev nD) (t : Fin cfgA.N) (p : St) : St :=
  if hk : kindOf (t.val % 20) = .firstDiag then
    ⟨St.any.o, backM (RFirstDiag V c t hk).1.1, backL (RFirstDiag V c t hk).1.2.1, backA (RFirstDiag V c t hk).1.2.2⟩
  else if hk : kindOf (t.val % 20) = .firstPlain then
    ⟨St.any.o, backM (RFirstPlain V c t hk).1.1, backL (RFirstPlain V c t hk).1.2.1, backA (RFirstPlain V c t hk).1.2.2⟩
  else if hk : kindOf (t.val % 20) = .plain then
    ⟨St.any.o, backM (RPlain V c t hk p).1.1, backL (RPlain V c t hk p).1.2.1, backA (RPlain V c t hk p).1.2.2⟩
  else if hk : kindOf (t.val % 20) = .diag then
    ⟨St.any.o, backM (RDiag V c t hk p).1.1, backL (RDiag V c t hk p).1.2.1, backA (RDiag V c t hk p).1.2.2⟩
  else if hk : kindOf (t.val % 20) = .last then
    ⟨backO (RLast V c t hk p).1.2.2.2, backM (RLast V c t hk p).1.1, backL (RLast V c t hk p).1.2.1, backA (RLast V c t hk p).1.2.2.1⟩
  else St.any

def stAt (c : Dev nD) : (n : ℕ) → n < cfgA.N → St
  | 0, hn => stepSt V c ⟨0, hn⟩ St.any
  | n + 1, hn => stepSt V c ⟨n + 1, hn⟩ (stAt c n (Nat.lt_of_succ_lt hn))

theorem stAt_pos (c : Dev nD) (t : Fin cfgA.N) (h : t.val ≠ 0) :
    stAt V c t.val t.isLt = stepSt V c t (stAt V c (t.val - 1) (Nat.lt_of_le_of_lt (Nat.sub_le _ _) t.isLt)) := by
  obtain ⟨n, hn⟩ := t
  cases n with
  | zero => exact absurd rfl h
  | succ n => rfl

theorem stepSt_firstDiag (c : Dev nD) (t : Fin cfgA.N) (p : St) (hk : kindOf (t.val % 20) = .firstDiag) :
    stepSt V c t p = ⟨St.any.o, backM (RFirstDiag V c t hk).1.1, backL (RFirstDiag V c t hk).1.2.1, backA (RFirstDiag V c t hk).1.2.2⟩ := by
  unfold stepSt; rw [dif_pos hk]
theorem stepSt_firstPlain (c : Dev nD) (t : Fin cfgA.N) (p : St) (hk : kindOf (t.val % 20) = .firstPlain) :
    stepSt V c t p = ⟨St.any.o, backM (RFirstPlain V c t hk).1.1, backL (RFirstPlain V c t hk).1.2.1, backA (RFirstPlain V c t hk).1.2.2⟩ := by
  unfold stepSt; rw [dif_neg (by rw [hk]; decide), dif_pos hk]
theorem stepSt_plain (c : Dev nD) (t : Fin cfgA.N) (p : St) (hk : kindOf (t.val % 20) = .plain) :
    stepSt V c t p = ⟨St.any.o, backM (RPlain V c t hk p).1.1, backL (RPlain V c t hk p).1.2.1, backA (RPlain V c t hk p).1.2.2⟩ := by
  unfold stepSt; rw [dif_neg (by rw [hk]; decide), dif_neg (by rw [hk]; decide), dif_pos hk]
theorem stepSt_diag (c : Dev nD) (t : Fin cfgA.N) (p : St) (hk : kindOf (t.val % 20) = .diag) :
    stepSt V c t p = ⟨St.any.o, backM (RDiag V c t hk p).1.1, backL (RDiag V c t hk p).1.2.1, backA (RDiag V c t hk p).1.2.2⟩ := by
  unfold stepSt; rw [dif_neg (by rw [hk]; decide), dif_neg (by rw [hk]; decide), dif_neg (by rw [hk]; decide), dif_pos hk]
theorem stepSt_last (c : Dev nD) (t : Fin cfgA.N) (p : St) (hk : kindOf (t.val % 20) = .last) :
    stepSt V c t p = ⟨backO (RLast V c t hk p).1.2.2.2, backM (RLast V c t hk p).1.1, backL (RLast V c t hk p).1.2.1, backA (RLast V c t hk p).1.2.2.1⟩ := by
  unfold stepSt; rw [dif_neg (by rw [hk]; decide), dif_neg (by rw [hk]; decide), dif_neg (by rw [hk]; decide), dif_neg (by rw [hk]; decide), dif_pos hk]

def tabs (c : Dev nD) : sProp 𝕄 :=
  Pipeline.prefHeld (Ix := Unit) (Name := ℕ) (U := UR sig nD τ) (Lvl := ℕ) pre1 c (fun _ => fullShare) tbl

/-- The invariant's shape: what the region holds besides the scratch, the same at every step, and the scratch as M, L, A say. -/
def held (c : Dev nD) (M L A : sProp 𝕄) : sProp 𝕄 :=
  iprop(iprop(iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg4_1), ((c : Thread nD τ).loc cc0_stg4_1) ↦{fullShare} f) ∗ (∃ f : Buf (Elt 𝔽) ((c : Thread nD τ).loc cc0_stg5_0), ((c : Thread nD τ).loc cc0_stg5_0) ↦{fullShare} f) ∗ (∃ f : Buf (Elt 𝔽) ((c : Thread nD τ).loc cc0_stg5_1), ((c : Thread nD τ).loc cc0_stg5_1) ↦{fullShare} f) ∗ (∃ f : Buf (Elt 𝔽) ((c : Thread nD τ).loc cc0_stg6_0), ((c : Thread nD τ).loc cc0_stg6_0) ↦{fullShare} f) ∗ (∃ f : Buf (Elt 𝔽) ((c : Thread nD τ).loc cc0_stg6_1), ((c : Thread nD τ).loc cc0_stg6_1) ↦{fullShare} f) ∗ M ∗ L ∗ A) ∗ (∃ r, prngReg c r)) ∗ tabs c)

abbrev anyAt (c : Dev nD) {S : Shape} {e : EltTy} (M : Memref sig .tc .vmem S e) : sProp 𝕄 := iprop(∃ d, owns (c : Thread nD τ) M fullShare d)
abbrev heldAny (c : Dev nD) : sProp 𝕄 := held c (anyAt c scM) (anyAt c scL) (anyAt c scA)
abbrev heldAt (c : Dev nD) (p : St) : sProp 𝕄 := held c (owns (c : Thread nD τ) scM fullShare p.m) (owns (c : Thread nD τ) scL fullShare p.l) (owns (c : Thread nD τ) scA fullShare p.a)

/-- Before step n the scratch holds what step n - 1 left; before the first step, anything. -/
def PhiS (c : Dev nD) : (n : ℕ) → n ≤ cfgA.N → sProp 𝕄
  | 0, _ => iprop(Pipeline.ΦA spec1 c ∗ tabs c)
  | n + 1, hn => heldAt c (stAt V c n hn)

def dat1 (c : Dev nD) : Dat τ (Elt 𝔽) Unit ℕ (UR sig nD τ) ℕ cfgA c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).o
  Φ t := PhiS V c t.val (Nat.le_of_lt_succ t.isLt)
  q _ := fullShare
  owed _ := 0

theorem dat1_A (c : Dev nD) (w : Fin cfgA.W) : (dat1 V c).A w = V c (Pipeline.arrRef spec1 w) := by
  dsimp only [dat1]
theorem dat1_after3 (c : Dev nD) (t : Fin cfgA.N) : (dat1 V c).after 3 t = (stAt V c t.val t.isLt).o := by dsimp only [dat1]

theorem tabs_eq (c : Dev nD) : (tabs c : sProp 𝕄) = iprop(tbPt (F := 𝔽) c tbQ (tbl 0) ∗ tbPt (F := 𝔽) c tbK (tbl 1)) := by
  unfold tabs Pipeline.prefHeld
  rw [show (Finset.univ : Finset (Fin 2)) = insert (0 : Fin 2) {(1 : Fin 2)} from by decide,
    bigSep_insert (by decide), bigSep_singleton]
  rfl

theorem PhiA1_eq (c : Dev nD) : (iprop(Pipeline.ΦA spec1 c ∗ tabs c) : sProp 𝕄) = heldAny c := by
  unfold heldAny held anyAt Pipeline.ΦA; rw [scopedRest1_eq]; simp only [scM, scL, scA, owns_whole]; try rfl

theorem after1_0 (c : Dev nD) (t : Fin cfgA.N) : (dat1 V c).after 0 t = blk1 V c 0 t := by dsimp only [dat1]
theorem after1_1 (c : Dev nD) (t : Fin cfgA.N) : (dat1 V c).after 1 t = blk1 V c 1 t := by dsimp only [dat1]
theorem after1_2 (c : Dev nD) (t : Fin cfgA.N) : (dat1 V c).after 2 t = blk1 V c 2 t := by dsimp only [dat1]

theorem before1_0 (c : Dev nD) (t : Fin cfgA.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfgA.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfgA.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)

/-- The state a step starts from. -/
def prevSt (c : Dev nD) (t : Fin cfgA.N) : St :=
  if h : t.val = 0 then St.any else stAt V c (t.val - 1) (Nat.lt_of_le_of_lt (Nat.sub_le _ _) t.isLt)

theorem stAt_eq (c : Dev nD) (t : Fin cfgA.N) : stAt V c t.val t.isLt = stepSt V c t (prevSt V c t) := by
  by_cases h : t.val = 0
  · obtain ⟨n, hn⟩ := t
    obtain rfl : n = 0 := h
    unfold prevSt; rw [dif_pos rfl]; rfl
  · rw [stAt_pos V c t h]; unfold prevSt; rw [dif_neg h]

theorem kind_total (s : ℕ) : kindOf s = .firstDiag ∨ kindOf s = .last ∨ kindOf s = .firstPlain ∨ kindOf s = .plain ∨ kindOf s = .diag := by
  cases kindOf s <;> simp

theorem kind_zero (t : Fin cfgA.N) (h : t.val = 0) : kindOf (t.val % 20) = .firstDiag := by
  rw [h]; rfl

theorem PhiS_succ (c : Dev nD) (n : ℕ) (hn : n < cfgA.N) :
    PhiS V c (n + 1) hn = heldAt c (stAt V c n hn) := rfl

theorem PhiS_castSucc (c : Dev nD) (t : Fin cfgA.N) : (dat1 V c).Φ t.castSucc = PhiS V c t.val (Nat.le_of_lt t.isLt) := by
  dsimp only [dat1]; simp only [Fin.coe_castSucc]

theorem PhiS_prev (c : Dev nD) (t : Fin cfgA.N) (hz : t.val ≠ 0) :
    PhiS V c t.val (Nat.le_of_lt t.isLt) = heldAt c (prevSt V c t) := by
  obtain ⟨n, hn⟩ := t
  cases n with
  | zero => exact absurd rfl hz
  | succ n => unfold prevSt; rw [dif_neg hz]; rfl

/-- The tables and the scratch can be taken out of the invariant and put back with the scratch at other contents. -/
theorem held_open (c : Dev nD) (M L A M' L' A' : sProp 𝕄) :
    held c M L A ⊢ iprop(tbPt (F := 𝔽) c tbQ (tbl 0) ∗ tbPt (F := 𝔽) c tbK (tbl 1) ∗ M ∗ L ∗ A
      ∗ (iprop(tbPt (F := 𝔽) c tbQ (tbl 0) ∗ tbPt (F := 𝔽) c tbK (tbl 1) ∗ M' ∗ L' ∗ A') -∗ held c M' L' A')) := by
  unfold held; rw [tabs_eq]
  iintro ⟨⟨⟨B1, B2, B3, B4, B5, B6, B7, B8, B9, B10, B11, HM, HL, HA⟩, Hg⟩, HT0, HT1⟩
  iframe HT0 HT1 HM HL HA
  iintro ⟨HT0, HT1, HM, HL, HA⟩
  iframe

theorem PhiS_any (c : Dev nD) (n : ℕ) (h : n ≤ cfgA.N) : PhiS V c n h ⊢ heldAny c := by
  cases n with
  | zero =>
    show iprop(Pipeline.ΦA spec1 c ∗ tabs c) ⊢ _
    rw [PhiA1_eq]
  | succ n =>
    rw [PhiS_succ]
    iintro H
    ihave H' := (held_open c _ _ _ (anyAt c scM) (anyAt c scL) (anyAt c scA)) $$ H
    icases H' with ⟨HT0, HT1, HM, HL, HA, Hb⟩
    iapply Hb
    iframe HT0 HT1
    isplitl [HM]; · iexists _; iexact HM
    isplitl [HL]; · iexists _; iexact HL
    iexists _; iexact HA

abbrev bodyAtA (t : Fin cfgA.N) : Prog (TpuEff nD τ sig (Elt 𝔽) Λ₀ .tc) PUnit :=
  cc1__attn_kernel (F := 𝔽) (cfgA.grid.coords t) tbQ htbQ tbK htbK (msQ t) (hsQ t) (msK t) (hsK t) (msV t) (hsV t) (msO t) (hsO t) scM hscM scL hscL scA hscA

def bodyPre1 (c : Dev nD) (t : Fin cfgA.N) : sProp 𝕄 :=
  iprop((dat1 V c).Φ t.castSucc ∗ (dat1 V c).owesAt () t.castSucc
    ∗ (∃ d, owns (c : Thread nD τ) (msQ t) fullShare ((dat1 V c).before 0 t d))
    ∗ (∃ d, owns (c : Thread nD τ) (msK t) fullShare ((dat1 V c).before 1 t d))
    ∗ (∃ d, owns (c : Thread nD τ) (msV t) fullShare ((dat1 V c).before 2 t d))
    ∗ (∃ d, owns (c : Thread nD τ) (msO t) fullShare ((dat1 V c).before 3 t d)))

def bodyPost1 (c : Dev nD) (t : Fin cfgA.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

end Cert.Kernel.Hand

end
-- ==== Proof.KAttn.lean ====
/- The attention body meets its obligation at every step of the grid: whatever the kind of the step, it takes the scratch out of
   the invariant, runs, and puts the scratch back at the step's state. -/
import proofs.«401152_j23330262351892_3_alg».proof.Proof.KAttnCore

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Bits

local notation "𝕄" => MT nD τ sig Unit (Elt 𝔽) ℕ (UR sig nD τ) ℕ

variable (V : (c : Dev nD) → (b : Ref sig .tc) → Buf (Elt 𝔽) ((c : Thread nD τ).loc b))

set_option maxHeartbeats 4000000 in
/-- A step that does not write the output tile: given the scratch as its run wants it, a run whose stores cover the scratch, and the state they leave. -/
theorem sound_of_run (c : Dev nD) (t : Fin cfgA.N) (hk : kindOf (t.val % 20) ≠ .last) (Sm Sl Sa : sProp 𝕄)
    (Lm Ll : List (View.Piece (Elt 𝔽) S512x1 .f32)) (La : List (View.Piece (Elt 𝔽) S512x1024 .f32))
    (hΦ : PhiS V c t.val (Nat.le_of_lt t.isLt) ⊢ held c Sm Sl Sa)
    (hrun : ∀ K : PUnit → sProp 𝕄,
      iprop(tbPt (F := 𝔽) c tbQ (tbl 0) ∗ tbPt (F := 𝔽) c tbK (tbl 1)
        ∗ owns (c : Thread nD τ) (msQ t) fullShare (blk1 V c 0 t) ∗ owns (c : Thread nD τ) (msK t) fullShare (blk1 V c 1 t) ∗ owns (c : Thread nD τ) (msV t) fullShare (blk1 V c 2 t)
        ∗ Sm ∗ Sl ∗ Sa
        ∗ (iprop(tbPt (F := 𝔽) c tbQ (tbl 0) ∗ tbPt (F := 𝔽) c tbK (tbl 1)
        ∗ owns (c : Thread nD τ) (msQ t) fullShare (blk1 V c 0 t) ∗ owns (c : Thread nD τ) (msK t) fullShare (blk1 V c 1 t) ∗ owns (c : Thread nD τ) (msV t) fullShare (blk1 V c 2 t)
            ∗ (∃ f, scM.view.loc (c : Thread nD τ) ↦[scM.view.set]{fullShare} scM.view.writes (Elt 𝔽) f Lm) ∗ (∃ f, scL.view.loc (c : Thread nD τ) ↦[scL.view.set]{fullShare} scL.view.writes (Elt 𝔽) f Ll) ∗ (∃ f, scA.view.loc (c : Thread nD τ) ↦[scA.view.set]{fullShare} scA.view.writes (Elt 𝔽) f La)) -∗ K ⟨⟩))
        ⊢ wp frame (wpE (defs₀ (F := 𝔽)) Variants.none c none) Set.univ (bodyAtA t) K)
    (hst : stepSt V c t (prevSt V c t) = ⟨St.any.o, backM Lm, backL Ll, backA La⟩)
    (cm : ∀ y, ∃ pc ∈ Lm, y ∈ pc.1.set) (cl : ∀ y, ∃ pc ∈ Ll, y ∈ pc.1.set) (ca : ∀ y, ∃ pc ∈ La, y ∈ pc.1.set) :
    bodyPre1 V c t ⊢ wp frame (wpE (defs₀ (F := 𝔽)) Variants.none c none) Set.univ (bodyAtA t) (fun _ => bodyPost1 V c t) := by
  unfold bodyPre1 bodyPost1 bodyAtA
  simp only [before1_0, before1_1, before1_2]
  rw [show (dat1 V c).owesAt () t.succ = (dat1 V c).owesAt () t.castSucc from rfl,
    show (dat1 V c).Φ t.succ = PhiS V c (t.val + 1) t.isLt from rfl, PhiS_succ, PhiS_castSucc,
    show (dat1 V c).leavesExact 0 t = owns (c : Thread nD τ) (msQ t) fullShare (blk1 V c 0 t) from by
      unfold Dat.leavesExact; rw [in_live0 t, after1_0],
    show (dat1 V c).leavesExact 1 t = owns (c : Thread nD τ) (msK t) fullShare (blk1 V c 1 t) from by
      unfold Dat.leavesExact; rw [in_live1 t, after1_1],
    show (dat1 V c).leavesExact 2 t = owns (c : Thread nD τ) (msV t) fullShare (blk1 V c 2 t) from by
      unfold Dat.leavesExact; rw [in_live2 t, after1_2],
    stAt_eq V c t]
  rw [Dat.leavesExact_idle (dat1 V c) 3 t (out_idle t hk).1 (out_idle t hk).2]
  iintro ⟨HΦ, Ho, ⟨%d0, H0⟩, ⟨%d1, H1⟩, ⟨%d2, H2⟩, H3⟩
  ihave HΦ' := (hΦ.trans (held_open c Sm Sl Sa (owns (c : Thread nD τ) scM fullShare (stepSt V c t (prevSt V c t)).m) (owns (c : Thread nD τ) scL fullShare (stepSt V c t (prevSt V c t)).l) (owns (c : Thread nD τ) scA fullShare (stepSt V c t (prevSt V c t)).a))) $$ HΦ
  icases HΦ' with ⟨HT0, HT1, HS0, HS1, HS2, Hb⟩
  iapply (hrun _)
  iframe HT0 HT1 H0 H1 H2 HS0 HS1 HS2
  iintro ⟨HT0, HT1, H0, H1, H2, ⟨%e0, HS0⟩, ⟨%e1, HS1⟩, ⟨%e2, HS2⟩⟩
  isplitl [Hb HT0 HT1 HS0 HS1 HS2]
  · iapply Hb
    iframe HT0 HT1
    isplitl [HS0]
    · unfold owns; iexists _; isplitr
      swap; · iexact HS0
      ipureintro
      rw [hst]; dsimp only
      exact View.read_writes_of_cover _ _ _ _ _ cm
    isplitl [HS1]
    · unfold owns; iexists _; isplitr
      swap; · iexact HS1
      ipureintro
      rw [hst]; dsimp only
      exact View.read_writes_of_cover _ _ _ _ _ cl
    unfold owns; iexists _; isplitr
    swap; · iexact HS2
    ipureintro
    rw [hst]; dsimp only
    exact View.read_writes_of_cover _ _ _ _ _ ca
  iframe

/-- A step that is not the very first starts from the state the step before left. -/
theorem carried (c : Dev nD) (t : Fin cfgA.N) (hk : kindOf (t.val % 20) ≠ .firstDiag) :
    PhiS V c t.val (Nat.le_of_lt t.isLt) ⊢ heldAt c (prevSt V c t) :=
  Entails.of_eq (PhiS_prev V c t fun h => hk (kind_zero t h))

set_option maxHeartbeats 4000000 in
/-- The last step of a query tile also writes the output tile. -/
theorem sound_last (c : Dev nD) (t : Fin cfgA.N) (hk : kindOf (t.val % 20) = .last) :
    bodyPre1 V c t ⊢ wp frame (wpE (defs₀ (F := 𝔽)) Variants.none c none) Set.univ (bodyAtA t) (fun _ => bodyPost1 V c t) := by
  unfold bodyPre1 bodyPost1 bodyAtA
  simp only [before1_0, before1_1, before1_2]
  rw [show (dat1 V c).owesAt () t.succ = (dat1 V c).owesAt () t.castSucc from rfl,
    show (dat1 V c).Φ t.succ = PhiS V c (t.val + 1) t.isLt from rfl, PhiS_succ, PhiS_castSucc,
    show (dat1 V c).leavesExact 0 t = owns (c : Thread nD τ) (msQ t) fullShare (blk1 V c 0 t) from by
      unfold Dat.leavesExact; rw [in_live0 t, after1_0],
    show (dat1 V c).leavesExact 1 t = owns (c : Thread nD τ) (msK t) fullShare (blk1 V c 1 t) from by
      unfold Dat.leavesExact; rw [in_live1 t, after1_1],
    show (dat1 V c).leavesExact 2 t = owns (c : Thread nD τ) (msV t) fullShare (blk1 V c 2 t) from by
      unfold Dat.leavesExact; rw [in_live2 t, after1_2],
    stAt_eq V c t]
  rw [show (dat1 V c).leavesExact 3 t = owns (c : Thread nD τ) (msO t) fullShare ((dat1 V c).after 3 t) from by
      unfold Dat.leavesExact; rw [out_live t hk], dat1_after3, stAt_eq V c t]
  have hst := stepSt_last V c t (prevSt V c t) hk
  iintro ⟨HΦ, Ho, ⟨%d0, H0⟩, ⟨%d1, H1⟩, ⟨%d2, H2⟩, ⟨%d3, H3⟩⟩
  ihave HΦ' := ((carried V c t (by rw [hk]; decide)).trans (held_open c _ _ _ (owns (c : Thread nD τ) scM fullShare (stepSt V c t (prevSt V c t)).m) (owns (c : Thread nD τ) scL fullShare (stepSt V c t (prevSt V c t)).l) (owns (c : Thread nD τ) scA fullShare (stepSt V c t (prevSt V c t)).a))) $$ HΦ
  icases HΦ' with ⟨HT0, HT1, HS0, HS1, HS2, Hb⟩
  iapply ((RLast V c t hk (prevSt V c t)).2 Set.univ _)
  iframe HT0 HT1 H0 H1 H2 HS0 HS1 HS2
  isplitl [H3]; · iexists _; iexact H3
  iintro ⟨HT0, HT1, H0, H1, H2, ⟨%e0, HS0⟩, ⟨%e1, HS1⟩, ⟨%e2, HS2⟩, ⟨%e3, H3⟩⟩
  isplitl [Hb HT0 HT1 HS0 HS1 HS2]
  · iapply Hb
    iframe HT0 HT1
    isplitl [HS0]
    · unfold owns; iexists _; isplitr
      swap; · iexact HS0
      ipureintro
      rw [hst]; dsimp only
      exact View.read_writes_of_cover _ _ _ _ _ (fun y => coverLast_m (F := 𝔽) ..)
    isplitl [HS1]
    · unfold owns; iexists _; isplitr
      swap; · iexact HS1
      ipureintro
      rw [hst]; dsimp only
      exact View.read_writes_of_cover _ _ _ _ _ (fun y => coverLast_l (F := 𝔽) ..)
    unfold owns; iexists _; isplitr
    swap; · iexact HS2
    ipureintro
    rw [hst]; dsimp only
    exact View.read_writes_of_cover _ _ _ _ _ (fun y => coverLast_a (F := 𝔽) ..)
  iframe Ho H0 H1 H2
  unfold owns; iexists _; isplitr
  swap; · iexact H3
  ipureintro
  rw [hst]; dsimp only
  exact View.read_writes_of_cover _ _ _ _ _ (fun y => coverLast_o (F := 𝔽) ..)

theorem sound_body1 (c : Dev nD) (t : Fin cfgA.N) :
    bodyPre1 V c t ⊢ wp frame (wpE (defs₀ (F := 𝔽)) Variants.none c none) Set.univ (bodyAtA t) (fun _ => bodyPost1 V c t) := by
  rcases kind_total (t.val % 20) with hk | hk | hk | hk | hk
  · exact sound_of_run V c t (by rw [hk]; decide) _ _ _ _ _ _ (PhiS_any V c _ _) (fun K => (RFirstDiag V c t hk).2 Set.univ K)
      (stepSt_firstDiag V c t _ hk) (fun y => coverFirstDiag_m (F := 𝔽) ..) (fun y => coverFirstDiag_l (F := 𝔽) ..) (fun y => coverFirstDiag_a (F := 𝔽) ..)
  · exact sound_last V c t hk
  · exact sound_of_run V c t (by rw [hk]; decide) _ _ _ _ _ _ (PhiS_any V c _ _) (fun K => (RFirstPlain V c t hk).2 Set.univ K)
      (stepSt_firstPlain V c t _ hk) (fun y => coverFirstPlain_m (F := 𝔽) ..) (fun y => coverFirstPlain_l (F := 𝔽) ..) (fun y => coverFirstPlain_a (F := 𝔽) ..)
  · exact sound_of_run V c t (by rw [hk]; decide) _ _ _ _ _ _ (carried V c t (by rw [hk]; decide)) (fun K => (RPlain V c t hk (prevSt V c t)).2 Set.univ K)
      (stepSt_plain V c t _ hk) (fun y => coverPlain_m (F := 𝔽) ..) (fun y => coverPlain_l (F := 𝔽) ..) (fun y => coverPlain_a (F := 𝔽) ..)
  · exact sound_of_run V c t (by rw [hk]; decide) _ _ _ _ _ _ (carried V c t (by rw [hk]; decide)) (fun K => (RDiag V c t hk (prevSt V c t)).2 Set.univ K)
      (stepSt_diag V c t _ hk) (fun y => coverDiag_m (F := 𝔽) ..) (fun y => coverDiag_l (F := 𝔽) ..) (fun y => coverDiag_a (F := 𝔽) ..)

theorem body_obligation1 (c : Dev nD) : BodyObligation (dat1 V c) (defs₀ (F := 𝔽)) Variants.none () Set.univ := fun t => by
  rw [bigSep_W1, bigSep_W1]
  exact sound_body1 V c t

/-- What the region is entered with is the invariant before the first step. -/
theorem attn_in (c : Dev nD) : iprop(Pipeline.ΦA spec1 c ∗ tabs c) ⊢ (dat1 V c).Φ 0 :=
  Idealize.SL.BI.Entails.refl _

/-- After the last step the scratch's contents are forgotten again. -/
theorem attn_out (c : Dev nD) : (dat1 V c).Φ (Fin.last cfgA.N) ⊢ iprop(Pipeline.ΦA spec1 c ∗ tabs c) := by
  rw [show (dat1 V c).Φ (Fin.last cfgA.N) = PhiS V c (Fin.last cfgA.N).val (Nat.le_of_lt_succ (Fin.last cfgA.N).isLt) from rfl, PhiA1_eq]
  exact PhiS_any V c _ _

end Cert.Kernel.Hand

end
-- ==== Proof.KMain.lean ====
/- The weights are narrowed, the three projections of the embeddings give q, k and v, and the result is the causal
   attention of q, k and v; every argument is at the end what it was at the start. -/
import proofs.«401152_j23330262351892_3_alg».proof.Proof.KProj
import proofs.«401152_j23330262351892_3_alg».proof.Proof.KAttn
import proofs.«401152_j23330262351892_3_alg».proof.Proof.Gen.Kernel.Launch
import proofs.«401152_j23330262351892_3_alg».proof.Proof.Gen.Kernel.Regions
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.StableHlo.Run
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Bits

local notation "𝕄" => MT nD τ sig Unit (Elt 𝔽) ℕ (UR sig nD τ) ℕ

variable (m : (ℓ : Loc nD τ sig) → Buf (Elt 𝔽) ℓ) (ρ : Dev nD → PrngReg)

abbrev W0 : Dev nD → Valuation τ sig (Elt 𝔽) := fun c b => (s₀ m ρ).mem ((c : Dev nD), b)
abbrev W1 (c : Dev nD) : Valuation τ sig (Elt 𝔽) := StableHlo.after hostOps0 (W0 m ρ c)
abbrev V1 : (c : Dev nD) → (b : Ref sig .tc) → Buf (Elt 𝔽) ((c : Thread nD τ).loc b) := fun c b => W1 m ρ c b
def W2 (c : Dev nD) : Valuation τ sig (Elt 𝔽) :=
  Pipeline.withArrays spec0 c (W1 m ρ c) fun w => (dat0 (F := 𝔽) (V1 m ρ) c).arrAt w cfg0.N
abbrev V2 : (c : Dev nD) → (b : Ref sig .tc) → Buf (Elt 𝔽) ((c : Thread nD τ).loc b) := fun c b => W2 m ρ c b
def W3 (c : Dev nD) : Valuation τ sig (Elt 𝔽) :=
  Pipeline.withArrays spec1 c (W2 m ρ c) fun w => (dat1 (V2 m ρ) c).arrAt w cfgA.N

def outFinal (c : Dev nD) := (dat1 (V2 m ρ) c).arrAt 3 cfgA.N

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_arr (c : Dev nD) (w : Fin cfg0.W) :
    W2 m ρ c (Proc.devRef .tc (Pipeline.arrRef spec0 w)) = (dat0 (F := 𝔽) (V1 m ρ) c).arrAt w cfg0.N :=
  Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_arr (c : Dev nD) (w : Fin cfgA.W) :
    W3 m ρ c (Proc.devRef .tc (Pipeline.arrRef spec1 w)) = (dat1 (V2 m ρ) c).arrAt w cfgA.N :=
  Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb

theorem V1_arg0 (c : Dev nD) : V1 m ρ c main_arg0 = m ((c : Thread nD τ).loc main_arg0) :=
  (W1_of m ρ c main_arg0 (by decide)).trans rfl
theorem V1_w0 (c : Dev nD) :
    V1 m ρ c main_v0 = (truncf (F := 𝔽) .bf16 (m ((c : Thread nD τ).loc main_arg1) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v0) = _
  after_results
theorem V1_w1 (c : Dev nD) :
    V1 m ρ c main_v1 = (truncf (F := 𝔽) .bf16 (m ((c : Thread nD τ).loc main_arg2) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v1) = _
  after_results
theorem V1_w2 (c : Dev nD) :
    V1 m ρ c main_v2 = (truncf (F := 𝔽) .bf16 (m ((c : Thread nD τ).loc main_arg3) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v2) = _
  after_results

theorem V2_q (c : Dev nD) : V2 m ρ c main_v3_0 = (dat0 (F := 𝔽) (V1 m ρ) c).arrAt 4 cfg0.N := W2_arr m ρ c 4
theorem V2_k (c : Dev nD) : V2 m ρ c main_v3_1 = (dat0 (F := 𝔽) (V1 m ρ) c).arrAt 5 cfg0.N := W2_arr m ρ c 5
theorem V2_v (c : Dev nD) : V2 m ρ c main_v3_2 = (dat0 (F := 𝔽) (V1 m ρ) c).arrAt 6 cfg0.N := W2_arr m ρ c 6

theorem V2_tables (c : Dev nD) : (fun k => V2 m ρ c (pre1.ref k)) = tbl := by
  funext k
  match k with
  | ⟨0, _⟩ =>
    show W2 m ρ c (Proc.devRef .tc main_c) = _
    rw [W2_of_ne m ρ c main_c (by decide)]
    show StableHlo.after hostOps0 (W0 m ρ c) (Proc.devRef .tc main_c) = _
    after_results; rfl
  | ⟨1, _⟩ =>
    show W2 m ρ c (Proc.devRef .tc main_c_0) = _
    rw [W2_of_ne m ρ c main_c_0 (by decide)]
    show StableHlo.after hostOps0 (W0 m ρ c) (Proc.devRef .tc main_c_0) = _
    after_results; rfl

abbrev adm : (p : Fin 2) → (pcfgs (F := 𝔽) p).Adm | ⟨0, _⟩ => cfg0.toPCfg_adm | ⟨1, _⟩ => adm1
def pdats : (p : Fin 2) → (c : Dev nD) → Dat τ (Elt 𝔽) Unit ℕ (UR sig nD τ) ℕ (Pipeline.pin (pcfgs (F := 𝔽)) adm p) c
  | ⟨0, _⟩ => fun c => dat0 (F := 𝔽) (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev Tₙ (c : Dev nD) : sProp 𝕄 := iprop(StableHlo.held (c : Thread nD τ) (Pipeline.ucRefs τ sig) (W3 m ρ c) ∗ ∃ r, prngReg c r)

theorem rest1_split (c : Dev nD) :
    (Pipeline.unscopedRest (Ix := Unit) (Name := ℕ) (U := UR sig nD τ) (Lvl := ℕ) spec1 c (V2 m ρ c) : sProp 𝕄)
      = iprop(tabs c ∗ Pipeline.unscopedRestP (Ix := Unit) (Name := ℕ) (U := UR sig nD τ) (Lvl := ℕ) pre1 spec1 c (V2 m ρ c)) := by
  rw [Pipeline.unscopedRest_split preFacts1 c (V2 m ρ c), V2_tables m ρ c]
  rfl

set_option backward.isDefEq.respectTransparency.types false in
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hsplit := Pipeline.arrays_of_unscopedBufs (p := 0) (pcfgs (F := 𝔽)) adm (pdats m ρ) (launch0 (F := 𝔽)).win
      (launch0 (F := 𝔽)).arr_whole c ((pdats m ρ 0 c).share_full fun _ => rfl) (V1 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    iframe Harr Hreg Hrest
    isplitr
    · unfold Pipeline.prefHeld; rw [show (Finset.univ : Finset (Fin 0)) = ∅ from rfl, BI.bigSep_empty]; iempintro
    unfold Pipeline.Dat.owesAt Pipeline.owesWithin
    icases Howes with ⟨%Wd, Howes⟩; iexists Wd
    isplitr; · ipureintro; exact fun _ _ => Or.inl trivial
    iexact Howes
  hin c := by
    show _ ⊢ Pipeline.ΦA spec0 c
    unfold Pipeline.ΦA
    iintro ⟨Hreg, -, Hsc⟩
    iframe
  hout c := by
    rw [Pipeline.ownSems0_none]
    show Pipeline.ΦA spec0 c ⊢ _
    unfold Pipeline.ΦA
    iintro ⟨Hsc, Hreg⟩
    iframe
    iempintro
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (fun w => (W2_arr m ρ c w).symm) (fun b hb => W2_of_ne m ρ c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%Wd, -, Howes⟩; iexists Wd; iexact Howes

set_option backward.isDefEq.respectTransparency.types false in
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ tabs c)
  Z c := Pipeline.unscopedRestP (Ix := Unit) (Name := ℕ) (U := UR sig nD τ) (Lvl := ℕ) pre1 spec1 c (V2 m ρ c)
  hentry c := by
    have hsplit := Pipeline.arrays_of_unscopedBufs (p := 1) (pcfgs (F := 𝔽)) adm (pdats m ρ) (launch1 (F := 𝔽)).win
      (launch1 (F := 𝔽)).arr_whole c ((pdats m ρ 1 c).share_full fun _ => rfl) (V2 m ρ c) fun _ => rfl
    rw [Pipeline.unscopedBufs_held] at hsplit
    iintro ⟨⟨Hbufs, Hreg, Howes⟩, -, -⟩
    ihave Hs := hsplit $$ Hbufs
    icases Hs with ⟨Harr, Hrest⟩
    ihave Hs' := (Entails.of_eq (rest1_split m ρ c)) $$ Hrest
    icases Hs' with ⟨Htab, Hrest⟩
    imodintro
    iframe Harr Hreg Hrest
    isplitl [Htab]; · unfold tabs; iexact Htab
    unfold Pipeline.Dat.owesAt Pipeline.owesWithin
    icases Howes with ⟨%Wd, Howes⟩; iexists Wd
    isplitr; · ipureintro; exact fun _ _ => Or.inl trivial
    iexact Howes
  hin c := by
    refine BIBase.Entails.trans ?_ (attn_in (V2 m ρ) c)
    unfold Pipeline.ΦA tabs
    iintro ⟨Hreg, Htab, Hsc⟩
    iframe
  hout c := by
    rw [Pipeline.ownSems0_none]
    refine BIBase.Entails.trans (attn_out (V2 m ρ) c) ?_
    unfold Pipeline.ΦA
    iintro ⟨⟨Hsc, Hreg⟩, Htab⟩
    iframe
    iempintro
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (fun b => W3 m ρ c b) ((pdats m ρ 1 c).arrAt · cfgA.N) (fun w => (W3_arr m ρ c w).symm) (fun b hb => W3_of_ne m ρ c b fun w e => hb (Finset.mem_image.mpr ⟨w, Finset.mem_univ _, e⟩))
    rw [Pipeline.unscopedBufs_held] at hjoin
    iintro ⟨Harr, Howes, ⟨Hreg, Htab⟩, Hrest⟩
    ihave Hur := (Entails.of_eq (rest1_split m ρ c).symm) $$ [Htab Hrest]
    · isplitl [Htab]; · iexact Htab
      iexact Hrest
    imodintro
    isplitl [Harr Hur Hreg]
    · isplitl [Harr Hur]
      · iapply hjoin; isplitl [Harr] <;> iassumption
      iexact Hreg
    unfold Pipeline.Dat.owesAt Pipeline.owesWithin
    icases Howes with ⟨%Wd, -, Howes⟩; iexists Wd; iexact Howes

abbrev segs : List (Pipeline.Seg (pcfgs (F := 𝔽)) adm (pdats m ρ) () defs₀ 𝒱₀ L lv) :=
  [.host (seg0 m 𝒱₀ L lv fun _ => R), .region (reg0 m ρ), .region (reg1 m ρ)]

theorem main_run (c : Dev nD) : main (F := 𝔽) c = Pipeline.Seg.run (segs m ρ) :=
  main_segs adm (pdats m ρ) () 𝒱₀ L lv _ (reg0 m ρ) (reg1 m ρ) rfl c

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What no step writes is at the end what it was at the start. -/
theorem W3_keep (c : Dev nD) (b : Ref sig .tc) (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans ((W2_of_ne m ρ c b h0).trans ((W1_of m ρ c b hh).trans rfl))

abbrev u₀ := initOf (Pipeline.cells (Pipeline.pin (pcfgs (F := 𝔽)) adm) (cellOf_inj adm))
  (Pipeline.launchToks (Pipeline.pin (pcfgs (F := 𝔽)) adm) (cellOf_inj adm))

set_option backward.isDefEq.respectTransparency.types false in
theorem run_main : θ_run defs (onTc (τ := τ) (main (F := 𝔽))) ⟨m, fun _ => 0, ρ⟩ (fun r => ∀ c : Dev nD,
      r.2.mem ((c.tc : Thread nD τ).loc main_v4) = outFinal m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      iintro Hu; imodintro
      isplitl [Hu]
      · iapply (show (ownU _ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h c =>
      ⟨(h c _ (mem_uc main_v4 (by decide))).trans (W3_arr m ρ c 3),
       (h c _ (mem_uc main_arg0 (by decide))).trans ((W3_of_ne m ρ c main_arg0 (by decide)).trans ((W2_arr m ρ c 0).trans
         (((dat0 (F := 𝔽) (V1 m ρ) c).arrAt_in 0 rfl _).trans (V1_arg0 m ρ c)))),
       (h c _ (mem_uc main_arg1 (by decide))).trans (W3_keep m ρ c _ (by decide) (by decide) (by decide)),
       (h c _ (mem_uc main_arg2 (by decide))).trans (W3_keep m ρ c _ (by decide) (by decide) (by decide)),
       (h c _ (mem_uc main_arg3 (by decide))).trans (W3_keep m ρ c _ (by decide) (by decide) (by decide))⟩)

end Cert.Kernel.Hand

end
-- ==== Proof.KiProj.lean ====
/- Each block of 512 embedding rows is multiplied by each of the three weight matrices; the three products are the
   corresponding blocks of q, k and v. -/
import proofs.«401152_j23330262351892_3_alg».proof.Proof.Gen.KernelIdeal.Launch
import proofs.«401152_j23330262351892_3_alg».proof.Proof.Gen.KernelIdeal.Skeleton
import proofs.«401152_j23330262351892_3_alg».proof.Proof.Gen.KernelIdeal.Points
import Idealize.ShloMosaic.Lib.Pipeline.FrameBody
import Idealize.ShloMosaic.Lib.Pipeline.Regions
import Idealize.ShloMosaic.Lib.Tactic
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rBlk : Rect S1x512x1024 := Rect.unit (s := S1x512x1024) ![0, 0, 0] S1x512x1024.size inb_S1x512x1024_S1x512x1024_0_0_0
abbrev rWgt : Rect S1024x1024 := Rect.unit (s := S1024x1024) ![0, 0] S1024x1024.size inb_S1024x1024_S1024x1024_0_0

theorem ld_rBlk (X : Vec F S1x512x1024 .f32) : View.ld X rBlk = X :=
  View.ld_unit_zero (funext fun a => by fin_cases a <;> rfl) _ X

theorem ld_rWgt (X : Vec F S1024x1024 .bf16) : View.ld X rWgt = X :=
  View.ld_unit_zero (funext fun a => by fin_cases a <;> rfl) _ X

def projStore (pay : Vec F S1x512x1024 .bf16) : Vec F S1x512x1024 .bf16 :=
  View.canon [⟨rBlk, pay⟩]

set_option maxHeartbeats 1000000 in
/-- The four inputs are unchanged, and each output becomes the product of the block with its weight matrix. -/
theorem sound_kernel0 (c : Dev nD) (E : Set ℕ) (i : grid0.Coords)
    (arg2 : Memref sig .tc .vmem S1x512x1024 .f32) (harg2 : arg2.IsWhole)
    (arg3 : Memref sig .tc .vmem S1024x1024 .bf16) (harg3 : arg3.IsWhole)
    (arg4 : Memref sig .tc .vmem S1024x1024 .bf16) (harg4 : arg4.IsWhole)
    (arg5 : Memref sig .tc .vmem S1024x1024 .bf16) (harg5 : arg5.IsWhole)
    (arg6 : Memref sig .tc .vmem S1x512x1024 .bf16) (harg6 : arg6.IsWhole)
    (arg7 : Memref sig .tc .vmem S1x512x1024 .bf16) (harg7 : arg7.IsWhole)
    (arg8 : Memref sig .tc .vmem S1x512x1024 .bf16) (harg8 : arg8.IsWhole)
    (x0 : Vec F S1x512x1024 .f32) (x1 x2 x3 : Vec F S1024x1024 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (projStore (k0_pay2 x0 x1))
            ∗ owns (c : Thread nD τ) arg7 fullShare (projStore (k0_pay3 x0 x2))
            ∗ owns (c : Thread nD τ) arg8 fullShare (projStore (k0_pay4 x0 x3))) -∗ K ⟨⟩))
      ⊢ wp frame (wpE (defs₀ (F := F)) Variants.none c none) E
          (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]; swap; isplitl [H1]; swap; isplitl [H2]; swap; isplitl [H3]; swap; isplitl [H4]; swap; isplitl [H5]
  all_goals
    iexists _; isplitr
    swap; · iassumption
    ipureintro
    first
    | rw [View.readAt_eq_ld, View.readAt_eq_ld, ld_rBlk, ld_rWgt]; exact View.read_writes_eq_canon _ _ _ (View.cover_of_tiled _ S1x512x1024.size (by rfl))
    | rfl

def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => projStore (k0_pay2 (blk0 V c 0 t) (blk0 V c 1 t))
    | ⟨5, _⟩ => projStore (k0_pay3 (blk0 V c 0 t) (blk0 V c 2 t))
    | ⟨6, _⟩ => projStore (k0_pay4 (blk0 V c 0 t) (blk0 V c 3 t))
  Φ _ := Pipeline.ΦA spec0 c
  q _ := fullShare
  owed _ := 0

theorem dat0_after0 (c : Dev nD) (t : Fin cfg0.N) : (dat0 V c).after 0 t = blk0 V c 0 t := rfl
theorem dat0_after1 (c : Dev nD) (t : Fin cfg0.N) : (dat0 V c).after 1 t = blk0 V c 1 t := rfl
theorem dat0_after2 (c : Dev nD) (t : Fin cfg0.N) : (dat0 V c).after 2 t = blk0 V c 2 t := rfl
theorem dat0_after3 (c : Dev nD) (t : Fin cfg0.N) : (dat0 V c).after 3 t = blk0 V c 3 t := rfl
theorem dat0_after4 (c : Dev nD) (t : Fin cfg0.N) :
    (dat0 V c).after 4 t = projStore (k0_pay2 (blk0 V c 0 t) (blk0 V c 1 t)) := by dsimp only [dat0]
theorem dat0_after5 (c : Dev nD) (t : Fin cfg0.N) :
    (dat0 V c).after 5 t = projStore (k0_pay3 (blk0 V c 0 t) (blk0 V c 2 t)) := by dsimp only [dat0]
theorem dat0_after6 (c : Dev nD) (t : Fin cfg0.N) :
    (dat0 V c).after 6 t = projStore (k0_pay4 (blk0 V c 0 t) (blk0 V c 3 t)) := by dsimp only [dat0]

theorem dat0_before0 (c : Dev nD) (t : Fin cfg0.N) (d) : (dat0 V c).before 0 t d = blk0 V c 0 t :=
  (dat0 V c).before_in_eq_fetched 0 rfl (fun _ => rfl) (fun _ _ _ => rfl) (fun _ => rfl) t d
theorem dat0_before1 (c : Dev nD) (t : Fin cfg0.N) (d) : (dat0 V c).before 1 t d = blk0 V c 1 t :=
  (dat0 V c).before_in_eq_fetched 1 rfl (fun _ => rfl) (fun _ _ _ => rfl) (fun _ => rfl) t d
theorem dat0_before2 (c : Dev nD) (t : Fin cfg0.N) (d) : (dat0 V c).before 2 t d = blk0 V c 2 t :=
  (dat0 V c).before_in_eq_fetched 2 rfl (fun _ => rfl) (fun _ _ _ => rfl) (fun _ => rfl) t d
theorem dat0_before3 (c : Dev nD) (t : Fin cfg0.N) (d) : (dat0 V c).before 3 t d = blk0 V c 3 t :=
  (dat0 V c).before_in_eq_fetched 3 rfl (fun _ => rfl) (fun _ _ _ => rfl) (fun _ => rfl) t d

def chain0 (Φ : Fin cfg0.W → sProp 𝕄) : sProp 𝕄 :=
  iprop(Φ 0 ∗ Φ 1 ∗ Φ 2 ∗ Φ 3 ∗ Φ 4 ∗ Φ 5 ∗ Φ 6)

def bodyPre0 (c : Dev nD) (t : Fin cfg0.N) : sProp 𝕄 :=
  iprop((dat0 V c).Φ t.castSucc ∗ (dat0 V c).owesAt () t.castSucc ∗ chain0 fun w =>
    iprop(∃ d, owns (c : Thread nD τ) ((cfg0.win w).stage (cfg0.slots t w)) fullShare ((dat0 V c).before w t d)))

def bodyPost0 (c : Dev nD) (t : Fin cfg0.N) : sProp 𝕄 :=
  iprop((dat0 V c).Φ t.succ ∗ (dat0 V c).owesAt () t.succ ∗ chain0 fun w =>
    owns (c : Thread nD τ) ((cfg0.win w).stage (cfg0.slots t w)) fullShare ((dat0 V c).after w t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0 chain0
  simp only [dat0_before0, dat0_before1, dat0_before2, dat0_before3]
  rw [show (dat0 V c).Φ t.succ = (dat0 V c).Φ t.castSucc from rfl,
    show (dat0 V c).owesAt () t.succ = (dat0 V c).owesAt () t.castSucc from rfl,
    dat0_after0, dat0_after1, dat0_after2, dat0_after3, dat0_after4, dat0_after5, dat0_after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _
    (blk0 V c 0 t) (blk0 V c 1 t) (blk0 V c 2 t) (blk0 V c 3 t) _)
  iframe H0 H1 H2 H3
  isplitl [H4]; · iexists _; iexact H4
  isplitl [H5]; · iexists _; iexact H5
  isplitl [H6]; · iexists _; iexact H6
  iintro ⟨H0, H1, H2, H3, H4, H5, H6⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Hand
end
-- ==== Proof.KiAttnWords.lean ====
/- What the five kinds of step share: the two tables, the word each holds at a step, and the four tests on those words. -/
import proofs.«401152_j23330262351892_3_alg».proof.Proof.Gen.KernelIdeal.Launch
import proofs.«401152_j23330262351892_3_alg».proof.Proof.Gen.KernelIdeal.Skeleton
import Idealize.ShloMosaic.Lib.Pipeline.FrameBody
import Idealize.ShloMosaic.Lib.Pipeline.Regions
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev tbQ : Memref sig .tc .smem S20 .i32 := Memref.whole main_c
abbrev htbQ : tbQ.IsWhole := Memref.isWhole_whole _
abbrev tbK : Memref sig .tc .smem S20 .i32 := Memref.whole main_c_0
abbrev htbK : tbK.IsWhole := Memref.isWhole_whole _

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare} f

abbrev wordAt (c : Dev nD) (M : Memref sig .tc .smem S20 .i32) (i : grid1.Coords) (xt : TbBuf (F := F) c M) : Elt F .i32 :=
  M.view.readAt (Elt F) (Rect.unit (s := S20) (k1_off1 i) S1.size (k1_off1_inb i)).toLoadRect xt (Shape.Idx.first (numel1_S1.symm ▸ Nat.one_pos))

abbrev isFirst (w3 : BitVec 32) : Prop := Scalar.cmpi .ne (Scalar.extui (Scalar.cmpi .eq w3 0#32)) 0#32 = 1#1
abbrev isPlain (w1 w3 : BitVec 32) : Prop := Scalar.cmpi .ne (Scalar.extui (Scalar.xori (Scalar.cmpi .sge w3 (Scalar.muli 2#32 w1)) 1#1)) 0#32 = 1#1
abbrev isDiag (w1 w3 : BitVec 32) : Prop := Scalar.cmpi .ne (Scalar.extui (Scalar.cmpi .sge w3 (Scalar.muli 2#32 w1))) 0#32 = 1#1
abbrev isLast (w1 w3 : BitVec 32) : Prop := k1_cond4 w1 w3 = 1#1

end Cert.KernelIdeal.Hand

end
-- ==== Proof.KiAttnRunA.lean ====
/- The body at the first step of the first query tile: the scratch is reset, then updated under the causal mask. -/
import proofs.«401152_j23330262351892_3_alg».proof.Proof.KiAttnWords

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirstDiag (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (h0 : isFirst (wordAt c tbK i xt1)) (h1 : ¬isPlain (wordAt c tbQ i xt0) (wordAt c tbK i xt1))
    (h2 : isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ (∃ d, owns (c : Thread nD τ) arg8 fullShare d) ∗ (∃ d, owns (c : Thread nD τ) arg9 fullShare d) ∗ (∃ d, owns (c : Thread nD τ) arg10 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%d8, %f8, -, H8⟩, ⟨%d9, %f9, -, H9⟩, ⟨%d10, %f10, -, H10⟩, Hk⟩
    obtain rfl := harg4.eq_unread hf4; obtain rfl := harg5.eq_unread hf5; obtain rfl := harg6.eq_unread hf6
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.KernelIdeal.Hand

end
-- ==== Proof.KiAttnRunB.lean ====
/- The body at the last step of a query tile: a masked update, then the output tile is the accumulator over the normaliser. -/
import proofs.«401152_j23330262351892_3_alg».proof.Proof.KiAttnWords

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runLast (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : ¬isPlain (wordAt c tbQ i xt0) (wordAt c tbK i xt1))
    (h2 : isDiag (wordAt c tbQ i xt0) (wordAt c tbK i xt1)) (h3 : isLast (wordAt c tbQ i xt0) (wordAt c tbK i xt1)) :
    { L : List (View.Piece (Elt F) S512x1 .f32) × List (View.Piece (Elt F) S512x1 .f32) × List (View.Piece (Elt F) S512x1024 .f32) × List (View.Piece (Elt F) S1x512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa ∗ (∃ d, owns (c : Thread nD τ) arg7 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2.1)
                ∗ (∃ f, arg7.view.loc (c : Thread nD τ) ↦[arg7.view.set]{fullShare} arg7.view.writes (Elt F) f L.2.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, ⟨%d7, %f7, -, H7⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    isplitl [H10]; · iexists _; iexact H10
    iexists _; iexact H7

end Cert.KernelIdeal.Hand

end
-- ==== Proof.KiAttnRunC.lean ====
/- The body at the first step of a later query tile: the scratch is reset, then updated with no mask. -/
import proofs.«401152_j23330262351892_3_alg».proof.Proof.KiAttnWords

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runFirstPlain (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (h0 : isFirst (wordAt c tbK i xt1)) (h1 : isPlain (wordAt c tbQ i xt0) (wordAt c tbK i xt1))
    (h2 : ¬isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ (∃ d, owns (c : Thread nD τ) arg8 fullShare d) ∗ (∃ d, owns (c : Thread nD τ) arg9 fullShare d) ∗ (∃ d, owns (c : Thread nD τ) arg10 fullShare d)
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part1_eq_skeleton]
    unfold owns
    iintro ⟨HT0, HT1, ⟨%f4, %hf4, H4⟩, ⟨%f5, %hf5, H5⟩, ⟨%f6, %hf6, H6⟩, ⟨%d8, %f8, -, H8⟩, ⟨%d9, %f9, -, H9⟩, ⟨%d10, %f10, -, H10⟩, Hk⟩
    obtain rfl := harg4.eq_unread hf4; obtain rfl := harg5.eq_unread hf5; obtain rfl := harg6.eq_unread hf6
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.KernelIdeal.Hand

end
-- ==== Proof.KiAttnRunD.lean ====
/- The body at a step that only updates: no reset, no mask, no output. -/
import proofs.«401152_j23330262351892_3_alg».proof.Proof.KiAttnWords

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runPlain (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : isPlain (wordAt c tbQ i xt0) (wordAt c tbK i xt1))
    (h2 : ¬isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part1_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.KernelIdeal.Hand

end
-- ==== Proof.KiAttnRunE.lean ====
/- The body at the first of the two steps on the diagonal: a masked update, no reset, no output. -/
import proofs.«401152_j23330262351892_3_alg».proof.Proof.KiAttnWords

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def runDiag (c : Dev nD) (i : grid1.Coords)
    (arg4 : Memref sig .tc .vmem S1x512x1024 .bf16) (harg4 : arg4.IsWhole) (arg5 : Memref sig .tc .vmem S1x256x1024 .bf16) (harg5 : arg5.IsWhole)
    (arg6 : Memref sig .tc .vmem S1x256x1024 .bf16) (harg6 : arg6.IsWhole) (arg7 : Memref sig .tc .vmem S1x512x1024 .f32) (harg7 : arg7.IsWhole)
    (arg8 : Memref sig .tc .vmem S512x1 .f32) (harg8 : arg8.IsWhole) (arg9 : Memref sig .tc .vmem S512x1 .f32) (harg9 : arg9.IsWhole)
    (arg10 : Memref sig .tc .vmem S512x1024 .f32) (harg10 : arg10.IsWhole)
    (xt0 : TbBuf (F := F) c tbQ) (xt1 : TbBuf (F := F) c tbK)
    (xq : Vec F S1x512x1024 .bf16) (xk : Vec F S1x256x1024 .bf16) (xv : Vec F S1x256x1024 .bf16)
    (sm : Vec F S512x1 .f32) (sl : Vec F S512x1 .f32) (sa : Vec F S512x1024 .f32)
    (h0 : ¬isFirst (wordAt c tbK i xt1)) (h1 : ¬isPlain (wordAt c tbQ i xt0) (wordAt c tbK i xt1))
    (h2 : isDiag (wordAt c tbQ i xt0) (wordAt c tbK i xt1)) (h3 : ¬isLast (wordAt c tbQ i xt0) (wordAt c tbK i xt1)) :
    { L : List (View.Piece (Elt F) S512x1 .f32) × List (View.Piece (Elt F) S512x1 .f32) × List (View.Piece (Elt F) S512x1024 .f32) //
      ∀ (E : Set ℕ) (K : PUnit → sProp 𝕄),
        iprop(tbPt c tbQ xt0 ∗ tbPt c tbK xt1 ∗ owns (c : Thread nD τ) arg4 fullShare xq ∗ owns (c : Thread nD τ) arg5 fullShare xk ∗ owns (c : Thread nD τ) arg6 fullShare xv
            ∗ owns (c : Thread nD τ) arg8 fullShare sm ∗ owns (c : Thread nD τ) arg9 fullShare sl ∗ owns (c : Thread nD τ) arg10 fullShare sa
            ∗ (iprop(tbPt c tbQ xt0 ∗ tbPt c tbK xt1 ∗ owns (c : Thread nD τ) arg4 fullShare xq ∗ owns (c : Thread nD τ) arg5 fullShare xk ∗ owns (c : Thread nD τ) arg6 fullShare xv
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E (cc1__attn_kernel i tbQ htbQ tbK htbK arg4 harg4 arg5 harg5 arg6 harg6 arg7 harg7 arg8 harg8 arg9 harg9 arg10 harg10) K } := by
  refine ⟨⟨?_, ?_, ?_⟩, fun E K => ?run⟩
  case run =>
    simp only [cc1__attn_kernel_eq_skeleton]; unfold cc1__attn_kernel_skel
    simp only [k1_part2_eq_skeleton]
    unfold owns
    iintro ⟨HT0, HT1, ⟨%f4, %hf4, H4⟩, ⟨%f5, %hf5, H5⟩, ⟨%f6, %hf6, H6⟩, ⟨%f8, %hf8, H8⟩, ⟨%f9, %hf9, H9⟩, ⟨%f10, %hf10, H10⟩, Hk⟩
    obtain rfl := harg4.eq_unread hf4; obtain rfl := harg5.eq_unread hf5; obtain rfl := harg6.eq_unread hf6
    obtain rfl := harg8.eq_unread hf8; obtain rfl := harg9.eq_unread hf9; obtain rfl := harg10.eq_unread hf10
    sl_exec (disch := first | sl_exact h0 | sl_exact h1 | sl_exact h2 | sl_exact h3)
    sl_step
    iapply Hk
    isplitl [HT0]; · iexact HT0
    isplitl [HT1]; · iexact HT1
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H8]; · iexists _; iexact H8
    isplitl [H9]; · iexists _; iexact H9
    iexists _; iexact H10

end Cert.KernelIdeal.Hand

end
-- ==== Proof.KiCovers.lean ====
/- Every kind of step stores each buffer it writes whole: its pieces tile the buffer. -/
import proofs.«401152_j23330262351892_3_alg».proof.Proof.KiAttnRunA
import proofs.«401152_j23330262351892_3_alg».proof.Proof.KiAttnRunB
import proofs.«401152_j23330262351892_3_alg».proof.Proof.KiAttnRunC
import proofs.«401152_j23330262351892_3_alg».proof.Proof.KiAttnRunD
import proofs.«401152_j23330262351892_3_alg».proof.Proof.KiAttnRunE

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F] (c : Dev nD) (i : grid1.Coords)
  (arg4 : Memref sig .tc .vmem S1x512x1024 .bf16) (harg4 : arg4.IsWhole) (arg5 : Memref sig .tc .vmem S1x256x1024 .bf16) (harg5 : arg5.IsWhole)
  (arg6 : Memref sig .tc .vmem S1x256x1024 .bf16) (harg6 : arg6.IsWhole) (arg7 : Memref sig .tc .vmem S1x512x1024 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1024 .f32) (harg10 : arg10.IsWhole)
  (xt0 : TbBuf (F := F) c tbQ) (xt1 : TbBuf (F := F) c tbK)
  (xq : Vec F S1x512x1024 .bf16) (xk : Vec F S1x256x1024 .bf16) (xv : Vec F S1x256x1024 .bf16)

section
variable (h0 : isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem coverFirstDiag_m (y : S512x1.Idx) : ∃ pc ∈ (runFirstDiag c i arg4 harg4 arg5 harg5 arg6 harg6 arg7 harg7 arg8 harg8 arg9 harg9 arg10 harg10 xt0 xt1 xq xk xv h0 h1 h2 h3).1.1, y ∈ pc.1.set :=
  View.cover_of_tiledL _ S512x1.size (by sl_kernel_rfl) y
theorem coverFirstDiag_l (y : S512x1.Idx) : ∃ pc ∈ (runFirstDiag c i arg4 harg4 arg5 harg5 arg6 harg6 arg7 harg7 arg8 harg8 arg9 harg9 arg10 harg10 xt0 xt1 xq xk xv h0 h1 h2 h3).1.2.1, y ∈ pc.1.set :=
  View.cover_of_tiledL _ S512x1.size (by sl_kernel_rfl) y
theorem coverFirstDiag_a (y : S512x1024.Idx) : ∃ pc ∈ (runFirstDiag c i arg4 harg4 arg5 harg5 arg6 harg6 arg7 harg7 arg8 harg8 arg9 harg9 arg10 harg10 xt0 xt1 xq xk xv h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : isLast (wordAt c tbQ i xt0) (wordAt c tbK i xt1))
theorem coverLast_m (y : S512x1.Idx) : ∃ pc ∈ (runLast c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverLast_l (y : S512x1.Idx) : ∃ pc ∈ (runLast c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverLast_a (y : S512x1024.Idx) : ∃ pc ∈ (runLast c i arg4 harg4 arg5 harg5 arg6 harg6 arg7 harg7 arg8 harg8 arg9 harg9 arg10 harg10 xt0 xt1 xq xk xv sm sl sa h0 h1 h2 h3).1.2.2.1, y ∈ pc.1.set :=
  View.cover_of_tiledL _ S512x1024.size (by sl_kernel_rfl) y
theorem coverLast_o (y : S1x512x1024.Idx) : ∃ pc ∈ (runLast c i arg4 harg4 arg5 harg5 arg6 harg6 arg7 harg7 arg8 harg8 arg9 harg9 arg10 harg10 xt0 xt1 xq xk xv sm sl sa h0 h1 h2 h3).1.2.2.2, y ∈ pc.1.set :=
  View.cover_of_tiledL _ S1x512x1024.size (by sl_kernel_rfl) y
end

section
variable (h0 : isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem coverFirstPlain_m (y : S512x1.Idx) : ∃ pc ∈ (runFirstPlain c i arg4 harg4 arg5 harg5 arg6 harg6 arg7 harg7 arg8 harg8 arg9 harg9 arg10 harg10 xt0 xt1 xq xk xv h0 h1 h2 h3).1.1, y ∈ pc.1.set :=
  View.cover_of_tiledL _ S512x1.size (by sl_kernel_rfl) y
theorem coverFirstPlain_l (y : S512x1.Idx) : ∃ pc ∈ (runFirstPlain c i arg4 harg4 arg5 harg5 arg6 harg6 arg7 harg7 arg8 harg8 arg9 harg9 arg10 harg10 xt0 xt1 xq xk xv h0 h1 h2 h3).1.2.1, y ∈ pc.1.set :=
  View.cover_of_tiledL _ S512x1.size (by sl_kernel_rfl) y
theorem coverFirstPlain_a (y : S512x1024.Idx) : ∃ pc ∈ (runFirstPlain c i arg4 harg4 arg5 harg5 arg6 harg6 arg7 harg7 arg8 harg8 arg9 harg9 arg10 harg10 xt0 xt1 xq xk xv h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem coverPlain_m (y : S512x1.Idx) : ∃ pc ∈ (runPlain c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverPlain_l (y : S512x1.Idx) : ∃ pc ∈ (runPlain c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverPlain_a (y : S512x1024.Idx) : ∃ pc ∈ (runPlain c i arg4 harg4 arg5 harg5 arg6 harg6 arg7 harg7 arg8 harg8 arg9 harg9 arg10 harg10 xt0 xt1 xq xk xv sm sl sa h0 h1 h2 h3).1.2.2, y ∈ pc.1.set :=
  View.cover_of_tiledL _ S512x1024.size (by sl_kernel_rfl) y
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem coverDiag_m (y : S512x1.Idx) : ∃ pc ∈ (runDiag c i arg4 harg4 arg5 harg5 arg6 harg6 arg7 harg7 arg8 harg8 arg9 harg9 arg10 harg10 xt0 xt1 xq xk xv sm sl sa h0 h1 h2 h3).1.1, y ∈ pc.1.set :=
  View.cover_of_tiledL _ S512x1.size (by sl_kernel_rfl) y
theorem coverDiag_l (y : S512x1.Idx) : ∃ pc ∈ (runDiag c i arg4 harg4 arg5 harg5 arg6 harg6 arg7 harg7 arg8 harg8 arg9 harg9 arg10 harg10 xt0 xt1 xq xk xv sm sl sa h0 h1 h2 h3).1.2.1, y ∈ pc.1.set :=
  View.cover_of_tiledL _ S512x1.size (by sl_kernel_rfl) y
theorem coverDiag_a (y : S512x1024.Idx) : ∃ pc ∈ (runDiag c i arg4 harg4 arg5 harg5 arg6 harg6 arg7 harg7 arg8 harg8 arg9 harg9 arg10 harg10 xt0 xt1 xq xk xv sm sl sa h0 h1 h2 h3).1.2.2, y ∈ pc.1.set :=
  View.cover_of_tiledL _ S512x1024.size (by sl_kernel_rfl) y
end

end Cert.KernelIdeal.Hand

end
-- ==== Proof.KiAttnCore.lean ====
/- The attention region, step by step, at the tables the program holds: the grid is 4 batches by 20 steps, step s of a batch
   being the s-th (query tile, key tile) pair on or under the diagonal; what the running maximum, the normaliser, the accumulator
   and the output tile hold after each step is defined by recursion on the step. -/
import proofs.«401152_j23330262351892_3_alg».proof.Proof.KiCovers
import Idealize.ShloMosaic.PureOps.Ideal
import Idealize.ShloMosaic.PureOps.BitExact

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Ideal

local notation "𝕄" => MT nD τ sig Unit (Elt 𝔽) ℕ (UR sig nD τ) ℕ

/-- The two tables: the query tile and the key tile of each of the 20 steps of a batch. -/
def tbl : pre1.Contents (Elt 𝔽) := fun j => match j with
  | ⟨0, _⟩ => fun i => lit0 (S20.rowMajor i)
  | ⟨1, _⟩ => fun i => lit1 (S20.rowMajor i)

theorem tbl_ok : ok1 (F := 𝔽) tbl := by decide +kernel

abbrev adm1 : (pcfg1 (F := 𝔽)).Adm := ⟨tbl, tbl_ok⟩
abbrev cfgA : Pipeline.Cfg sig Λ₀ := cfg1 adm1

theorem N_A : cfgA.N = 80 := by decide +kernel

inductive Kind | firstDiag | last | firstPlain | plain | diag
  deriving DecidableEq

/-- Which of the five things a step does, read off its position in the batch. -/
def kindOf (s : ℕ) : Kind :=
  if s = 0 then .firstDiag
  else if s = 1 ∨ s = 5 ∨ s = 11 ∨ s = 19 then .last
  else if s = 2 ∨ s = 6 ∨ s = 12 then .firstPlain
  else if s = 4 ∨ s = 10 ∨ s = 18 then .diag
  else .plain

abbrev wq (c : Dev nD) (t : Fin cfgA.N) : Elt 𝔽 .i32 := wordAt (F := 𝔽) c tbQ (cfgA.grid.coords t) (tbl 0)
abbrev wk (c : Dev nD) (t : Fin cfgA.N) : Elt 𝔽 .i32 := wordAt (F := 𝔽) c tbK (cfgA.grid.coords t) (tbl 1)

theorem tests_firstDiag : ∀ (c : Dev nD) (t : Fin cfgA.N), kindOf (t.val % 20) = .firstDiag →
    isFirst (wk c t) ∧ ¬isPlain (wq c t) (wk c t) ∧ isDiag (wq c t) (wk c t) ∧ ¬isLast (wq c t) (wk c t) := by decide +kernel
theorem tests_last : ∀ (c : Dev nD) (t : Fin cfgA.N), kindOf (t.val % 20) = .last →
    ¬isFirst (wk c t) ∧ ¬isPlain (wq c t) (wk c t) ∧ isDiag (wq c t) (wk c t) ∧ isLast (wq c t) (wk c t) := by decide +kernel
theorem tests_firstPlain : ∀ (c : Dev nD) (t : Fin cfgA.N), kindOf (t.val % 20) = .firstPlain →
    isFirst (wk c t) ∧ isPlain (wq c t) (wk c t) ∧ ¬isDiag (wq c t) (wk c t) ∧ ¬isLast (wq c t) (wk c t) := by decide +kernel
theorem tests_plain : ∀ (c : Dev nD) (t : Fin cfgA.N), kindOf (t.val % 20) = .plain →
    ¬isFirst (wk c t) ∧ isPlain (wq c t) (wk c t) ∧ ¬isDiag (wq c t) (wk c t) ∧ ¬isLast (wq c t) (wk c t) := by decide +kernel
theorem tests_diag : ∀ (c : Dev nD) (t : Fin cfgA.N), kindOf (t.val % 20) = .diag →
    ¬isFirst (wk c t) ∧ ¬isPlain (wq c t) (wk c t) ∧ isDiag (wq c t) (wk c t) ∧ ¬isLast (wq c t) (wk c t) := by decide +kernel

theorem out_idle : ∀ t : Fin cfgA.N, kindOf (t.val % 20) ≠ .last → cfgA.idle 3 (cfgA.grid.coords t) = true ∧ (cfgA.win 3).flush t = false := by decide +kernel
theorem out_live : ∀ t : Fin cfgA.N, kindOf (t.val % 20) = .last → cfgA.idle 3 (cfgA.grid.coords t) = false := by decide +kernel
theorem in_live0 : ∀ t : Fin cfgA.N, cfgA.idle 0 (cfgA.grid.coords t) = false := fun _ => rfl
theorem in_live1 : ∀ t : Fin cfgA.N, cfgA.idle 1 (cfgA.grid.coords t) = false := fun _ => rfl
theorem in_live2 : ∀ t : Fin cfgA.N, cfgA.idle 2 (cfgA.grid.coords t) = false := fun _ => rfl

variable (V : (c : Dev nD) → (b : Ref sig .tc) → Buf (Elt 𝔽) ((c : Thread nD τ).loc b))

/-- Window w's block at step t, read off its array as the region finds it. -/
def blk1 (c : Dev nD) (w : Fin cfgA.W) (t : Fin cfgA.N) : ((cfgA.win w).xblock (cfgA.grid.coords t)).Idx → Elt 𝔽 (cfgA.win w).elt :=
  ((cfgA.win w).blk t).view.read (Elt 𝔽) (V c (Pipeline.arrRef spec1 w))

abbrev msQ (t : Fin cfgA.N) : Memref sig .tc .vmem S1x512x1024 .bf16 := spec1_0.stage (cfgA.slots t 0)
abbrev hsQ (t : Fin cfgA.N) : (msQ t).IsWhole := hstage1_0 ((cfgA.slots t 0).cast nbuf1_0)
abbrev msK (t : Fin cfgA.N) : Memref sig .tc .vmem S1x256x1024 .bf16 := spec1_1.stage (cfgA.slots t 1)
abbrev hsK (t : Fin cfgA.N) : (msK t).IsWhole := hstage1_1 ((cfgA.slots t 1).cast nbuf1_1)
abbrev msV (t : Fin cfgA.N) : Memref sig .tc .vmem S1x256x1024 .bf16 := spec1_2.stage (cfgA.slots t 2)
abbrev hsV (t : Fin cfgA.N) : (msV t).IsWhole := hstage1_2 ((cfgA.slots t 2).cast nbuf1_2)
abbrev msO (t : Fin cfgA.N) : Memref sig .tc .vmem S1x512x1024 .f32 := spec1_3.stage (cfgA.slots t 3)
abbrev hsO (t : Fin cfgA.N) : (msO t).IsWhole := hstage1_3 ((cfgA.slots t 3).cast nbuf1_3)

abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev hscM : scM.IsWhole := Memref.isWhole_whole _
abbrev hscL : scL.IsWhole := Memref.isWhole_whole _
abbrev hscA : scA.IsWhole := Memref.isWhole_whole _
abbrev VM : View sig .tc .vmem S512x1 .f32 := scM.view
abbrev VL : View sig .tc .vmem S512x1 .f32 := scL.view
abbrev VA : View sig .tc .vmem S512x1024 .f32 := scA.view
abbrev VO : View sig .tc .vmem S1x512x1024 .f32 := (Memref.whole cc1_stg3_0 : Memref sig .tc .vmem S1x512x1024 .f32).view

abbrev backM (L : List (View.Piece (Elt 𝔽) S512x1 .f32)) : Vec 𝔽 S512x1 .f32 := VM.read (Elt 𝔽) (VM.writes (Elt 𝔽) VM.junk L)
abbrev backL (L : List (View.Piece (Elt 𝔽) S512x1 .f32)) : Vec 𝔽 S512x1 .f32 := VL.read (Elt 𝔽) (VL.writes (Elt 𝔽) VL.junk L)
abbrev backA (L : List (View.Piece (Elt 𝔽) S512x1024 .f32)) : Vec 𝔽 S512x1024 .f32 := VA.read (Elt 𝔽) (VA.writes (Elt 𝔽) VA.junk L)
abbrev backO (L : List (View.Piece (Elt 𝔽) S1x512x1024 .f32)) : Vec 𝔽 S1x512x1024 .f32 := VO.read (Elt 𝔽) (VO.writes (Elt 𝔽) VO.junk L)

/-- What the output tile, the running maximum, the normaliser and the accumulator hold after a step. -/
structure St where
  o : Vec 𝔽 S1x512x1024 .f32
  m : Vec 𝔽 S512x1 .f32
  l : Vec 𝔽 S512x1 .f32
  a : Vec 𝔽 S512x1024 .f32

def St.any : St := ⟨backO [], backM [], backL [], backA []⟩

abbrev RFirstDiag (c : Dev nD) (t : Fin cfgA.N) (hk : kindOf (t.val % 20) = .firstDiag) :=
  runFirstDiag (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t)
    (tests_firstDiag c t hk).1 (tests_firstDiag c t hk).2.1 (tests_firstDiag c t hk).2.2.1 (tests_firstDiag c t hk).2.2.2
abbrev RFirstPlain (c : Dev nD) (t : Fin cfgA.N) (hk : kindOf (t.val % 20) = .firstPlain) :=
  runFirstPlain (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t)
    (tests_firstPlain c t hk).1 (tests_firstPlain c t hk).2.1 (tests_firstPlain c t hk).2.2.1 (tests_firstPlain c t hk).2.2.2
abbrev RPlain (c : Dev nD) (t : Fin cfgA.N) (hk : kindOf (t.val % 20) = .plain) (p : St) :=
  runPlain (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_plain c t hk).1 (tests_plain c t hk).2.1 (tests_plain c t hk).2.2.1 (tests_plain c t hk).2.2.2
abbrev RDiag (c : Dev nD) (t : Fin cfgA.N) (hk : kindOf (t.val % 20) = .diag) (p : St) :=
  runDiag (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_diag c t hk).1 (tests_diag c t hk).2.1 (tests_diag c t hk).2.2.1 (tests_diag c t hk).2.2.2
abbrev RLast (c : Dev nD) (t : Fin cfgA.N) (hk : kindOf (t.val % 20) = .last) (p : St) :=
  runLast (F := 𝔽) c (cfgA.grid.coords t) (msQ t) (hsQ t) (msK t) (hsK t) (msV t) (hsV t) (msO t) (hsO t) scM hscM scL hscL scA hscA
    (tbl 0) (tbl 1) (blk1 V c 0 t) (blk1 V c 1 t) (blk1 V c 2 t) p.m p.l p.a
    (tests_last c t hk).1 (tests_last c t hk).2.1 (tests_last c t hk).2.2.1 (tests_last c t hk).2.2.2

/-- One step from the state p the step before left: each buffer read back from what the step's run stored. -/
def stepSt (c : Dev nD) (t : Fin cfgA.N) (p : St) : St :=
  if hk : kindOf (t.val % 20) = .firstDiag then
    ⟨St.any.o, backM (RFirstDiag V c t hk).1.1, backL (RFirstDiag V c t hk).1.2.1, backA (RFirstDiag V c t hk).1.2.2⟩
  else if hk : kindOf (t.val % 20) = .firstPlain then
    ⟨St.any.o, backM (RFirstPlain V c t hk).1.1, backL (RFirstPlain V c t hk).1.2.1, backA (RFirstPlain V c t hk).1.2.2⟩
  else if hk : kindOf (t.val % 20) = .plain then
    ⟨St.any.o, backM (RPlain V c t hk p).1.1, backL (RPlain V c t hk p).1.2.1, backA (RPlain V c t hk p).1.2.2⟩
  else if hk : kindOf (t.val % 20) = .diag then
    ⟨St.any.o, backM (RDiag V c t hk p).1.1, backL (RDiag V c t hk p).1.2.1, backA (RDiag V c t hk p).1.2.2⟩
  else if hk : kindOf (t.val % 20) = .last then
    ⟨backO (RLast V c t hk p).1.2.2.2, backM (RLast V c t hk p).1.1, backL (RLast V c t hk p).1.2.1, backA (RLast V c t hk p).1.2.2.1⟩
  else St.any

def stAt (c : Dev nD) : (n : ℕ) → n < cfgA.N → St
  | 0, hn => stepSt V c ⟨0, hn⟩ St.any
  | n + 1, hn => stepSt V c ⟨n + 1, hn⟩ (stAt c n (Nat.lt_of_succ_lt hn))

theorem stAt_pos (c : Dev nD) (t : Fin cfgA.N) (h : t.val ≠ 0) :
    stAt V c t.val t.isLt = stepSt V c t (stAt V c (t.val - 1) (Nat.lt_of_le_of_lt (Nat.sub_le _ _) t.isLt)) := by
  obtain ⟨n, hn⟩ := t
  cases n with
  | zero => exact absurd rfl h
  | succ n => rfl

theorem stepSt_firstDiag (c : Dev nD) (t : Fin cfgA.N) (p : St) (hk : kindOf (t.val % 20) = .firstDiag) :
    stepSt V c t p = ⟨St.any.o, backM (RFirstDiag V c t hk).1.1, backL (RFirstDiag V c t hk).1.2.1, backA (RFirstDiag V c t hk).1.2.2⟩ := by
  unfold stepSt; rw [dif_pos hk]
theorem stepSt_firstPlain (c : Dev nD) (t : Fin cfgA.N) (p : St) (hk : kindOf (t.val % 20) = .firstPlain) :
    stepSt V c t p = ⟨St.any.o, backM (RFirstPlain V c t hk).1.1, backL (RFirstPlain V c t hk).1.2.1, backA (RFirstPlain V c t hk).1.2.2⟩ := by
  unfold stepSt; rw [dif_neg (by rw [hk]; decide), dif_pos hk]
theorem stepSt_plain (c : Dev nD) (t : Fin cfgA.N) (p : St) (hk : kindOf (t.val % 20) = .plain) :
    stepSt V c t p = ⟨St.any.o, backM (RPlain V c t hk p).1.1, backL (RPlain V c t hk p).1.2.1, backA (RPlain V c t hk p).1.2.2⟩ := by
  unfold stepSt; rw [dif_neg (by rw [hk]; decide), dif_neg (by rw [hk]; decide), dif_pos hk]
theorem stepSt_diag (c : Dev nD) (t : Fin cfgA.N) (p : St) (hk : kindOf (t.val % 20) = .diag) :
    stepSt V c t p = ⟨St.any.o, backM (RDiag V c t hk p).1.1, backL (RDiag V c t hk p).1.2.1, backA (RDiag V c t hk p).1.2.2⟩ := by
  unfold stepSt; rw [dif_neg (by rw [hk]; decide), dif_neg (by rw [hk]; decide), dif_neg (by rw [hk]; decide), dif_pos hk]
theorem stepSt_last (c : Dev nD) (t : Fin cfgA.N) (p : St) (hk : kindOf (t.val % 20) = .last) :
    stepSt V c t p = ⟨backO (RLast V c t hk p).1.2.2.2, backM (RLast V c t hk p).1.1, backL (RLast V c t hk p).1.2.1, backA (RLast V c t hk p).1.2.2.1⟩ := by
  unfold stepSt; rw [dif_neg (by rw [hk]; decide), dif_neg (by rw [hk]; decide), dif_neg (by rw [hk]; decide), dif_neg (by rw [hk]; decide), dif_pos hk]

def tabs (c : Dev nD) : sProp 𝕄 :=
  Pipeline.prefHeld (Ix := Unit) (Name := ℕ) (U := UR sig nD τ) (Lvl := ℕ) pre1 c (fun _ => fullShare) tbl

/-- The invariant's shape: what the region holds besides the scratch, the same at every step, and the scratch as M, L, A say. -/
def held (c : Dev nD) (M L A : sProp 𝕄) : sProp 𝕄 :=
  iprop(iprop(iprop((∃ f : Buf (Elt 𝔽) ((c : Thread nD τ).loc cc0_stg0_0), ((c : Thread nD τ).loc cc0_stg0_0) ↦{fullShare} f) ∗ (∃ f : Buf (Elt 𝔽) ((c : Thread nD τ).loc cc0_stg0_1), ((c : Thread nD τ).loc cc0_stg0_1) ↦{fullShare} f) ∗ (∃ f : Buf (Elt 𝔽) ((c : Thread nD τ).loc cc0_stg1_0), ((c : Thread nD τ).loc cc0_stg1_0) ↦{fullShare} f) ∗ (∃ f : Buf (Elt 𝔽) ((c : Thread nD τ).loc cc0_stg2_0), ((c : Thread nD τ).loc cc0_stg2_0) ↦{fullShare} f) ∗ (∃ f : Buf (Elt 𝔽) ((c : Thread nD τ).loc cc0_stg3_0), ((c : Thread nD τ).loc cc0_stg3_0) ↦{fullShare} f) ∗ (∃ f : Buf (Elt 𝔽) ((c : Thread nD τ).loc cc0_stg4_0), ((c : Thread nD τ).loc cc0_stg4_0) ↦{fullShare} f) ∗ (∃ f : Buf (Elt 𝔽) ((c : Thread nD τ).loc cc0_stg4_1), ((c : Thread nD τ).loc cc0_stg4_1) ↦{fullShare} f) ∗ (∃ f : Buf (Elt 𝔽) ((c : Thread nD τ).loc cc0_stg5_0), ((c : Thread nD τ).loc cc0_stg5_0) ↦{fullShare} f) ∗ (∃ f : Buf (Elt 𝔽) ((c : Thread nD τ).loc cc0_stg5_1), ((c : Thread nD τ).loc cc0_stg5_1) ↦{fullShare} f) ∗ (∃ f : Buf (Elt 𝔽) ((c : Thread nD τ).loc cc0_stg6_0), ((c : Thread nD τ).loc cc0_stg6_0) ↦{fullShare} f) ∗ (∃ f : Buf (Elt 𝔽) ((c : Thread nD τ).loc cc0_stg6_1), ((c : Thread nD τ).loc cc0_stg6_1) ↦{fullShare} f) ∗ M ∗ L ∗ A) ∗ (∃ r, prngReg c r)) ∗ tabs c)

abbrev anyAt (c : Dev nD) {S : Shape} {e : EltTy} (M : Memref sig .tc .vmem S e) : sProp 𝕄 := iprop(∃ d, owns (c : Thread nD τ) M fullShare d)
abbrev heldAny (c : Dev nD) : sProp 𝕄 := held c (anyAt c scM) (anyAt c scL) (anyAt c scA)
abbrev heldAt (c : Dev nD) (p : St) : sProp 𝕄 := held c (owns (c : Thread nD τ) scM fullShare p.m) (owns (c : Thread nD τ) scL fullShare p.l) (owns (c : Thread nD τ) scA fullShare p.a)

/-- Before step n the scratch holds what step n - 1 left; before the first step, anything. -/
def PhiS (c : Dev nD) : (n : ℕ) → n ≤ cfgA.N → sProp 𝕄
  | 0, _ => iprop(Pipeline.ΦA spec1 c ∗ tabs c)
  | n + 1, hn => heldAt c (stAt V c n hn)

def dat1 (c : Dev nD) : Dat τ (Elt 𝔽) Unit ℕ (UR sig nD τ) ℕ cfgA c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => (stAt V c t.val t.isLt).o
  Φ t := PhiS V c t.val (Nat.le_of_lt_succ t.isLt)
  q _ := fullShare
  owed _ := 0

theorem dat1_A (c : Dev nD) (w : Fin cfgA.W) : (dat1 V c).A w = V c (Pipeline.arrRef spec1 w) := by
  dsimp only [dat1]
theorem dat1_after3 (c : Dev nD) (t : Fin cfgA.N) : (dat1 V c).after 3 t = (stAt V c t.val t.isLt).o := by dsimp only [dat1]

theorem tabs_eq (c : Dev nD) : (tabs c : sProp 𝕄) = iprop(tbPt (F := 𝔽) c tbQ (tbl 0) ∗ tbPt (F := 𝔽) c tbK (tbl 1)) := by
  unfold tabs Pipeline.prefHeld
  rw [show (Finset.univ : Finset (Fin 2)) = insert (0 : Fin 2) {(1 : Fin 2)} from by decide,
    bigSep_insert (by decide), bigSep_singleton]
  rfl

theorem PhiA1_eq (c : Dev nD) : (iprop(Pipeline.ΦA spec1 c ∗ tabs c) : sProp 𝕄) = heldAny c := by
  unfold heldAny held anyAt Pipeline.ΦA; rw [scopedRest1_eq]; simp only [scM, scL, scA, owns_whole]; try rfl

theorem after1_0 (c : Dev nD) (t : Fin cfgA.N) : (dat1 V c).after 0 t = blk1 V c 0 t := by dsimp only [dat1]
theorem after1_1 (c : Dev nD) (t : Fin cfgA.N) : (dat1 V c).after 1 t = blk1 V c 1 t := by dsimp only [dat1]
theorem after1_2 (c : Dev nD) (t : Fin cfgA.N) : (dat1 V c).after 2 t = blk1 V c 2 t := by dsimp only [dat1]

theorem before1_0 (c : Dev nD) (t : Fin cfgA.N) (d) : (dat1 V c).before 0 t d = blk1 V c 0 t :=
  ((dat1 V c).before_in_eq_fetched 0 rfl (fun _ => rfl) (fun _ _ _ => rfl) (fun t => by rw [after1_0]; unfold Dat.blockOf blk1; rw [dat1_A]; try rfl) t d).trans
    (by unfold Dat.fetched Dat.blockOf blk1; rw [dat1_A]; try rfl)
theorem before1_1 (c : Dev nD) (t : Fin cfgA.N) (d) : (dat1 V c).before 1 t d = blk1 V c 1 t :=
  ((dat1 V c).before_in_eq_fetched 1 rfl (fun _ => rfl) (fun _ _ _ => rfl) (fun t => by rw [after1_1]; unfold Dat.blockOf blk1; rw [dat1_A]; try rfl) t d).trans
    (by unfold Dat.fetched Dat.blockOf blk1; rw [dat1_A]; try rfl)
theorem before1_2 (c : Dev nD) (t : Fin cfgA.N) (d) : (dat1 V c).before 2 t d = blk1 V c 2 t :=
  ((dat1 V c).before_in_eq_fetched 2 rfl (fun _ => rfl) (fun _ _ _ => rfl) (fun t => by rw [after1_2]; unfold Dat.blockOf blk1; rw [dat1_A]; try rfl) t d).trans
    (by unfold Dat.fetched Dat.blockOf blk1; rw [dat1_A]; try rfl)

/-- The state a step starts from. -/
def prevSt (c : Dev nD) (t : Fin cfgA.N) : St :=
  if h : t.val = 0 then St.any else stAt V c (t.val - 1) (Nat.lt_of_le_of_lt (Nat.sub_le _ _) t.isLt)

theorem stAt_eq (c : Dev nD) (t : Fin cfgA.N) : stAt V c t.val t.isLt = stepSt V c t (prevSt V c t) := by
  by_cases h : t.val = 0
  · obtain ⟨n, hn⟩ := t
    obtain rfl : n = 0 := h
    unfold prevSt; rw [dif_pos rfl]; rfl
  · rw [stAt_pos V c t h]; unfold prevSt; rw [dif_neg h]

theorem kind_total (s : ℕ) : kindOf s = .firstDiag ∨ kindOf s = .last ∨ kindOf s = .firstPlain ∨ kindOf s = .plain ∨ kindOf s = .diag := by
  cases kindOf s <;> simp

theorem kind_zero (t : Fin cfgA.N) (h : t.val = 0) : kindOf (t.val % 20) = .firstDiag := by
  rw [h]; rfl

theorem PhiS_succ (c : Dev nD) (n : ℕ) (hn : n < cfgA.N) :
    PhiS V c (n + 1) hn = heldAt c (stAt V c n hn) := rfl

theorem PhiS_castSucc (c : Dev nD) (t : Fin cfgA.N) : (dat1 V c).Φ t.castSucc = PhiS V c t.val (Nat.le_of_lt t.isLt) := by
  dsimp only [dat1]; simp only [Fin.coe_castSucc]

theorem PhiS_prev (c : Dev nD) (t : Fin cfgA.N) (hz : t.val ≠ 0) :
    PhiS V c t.val (Nat.le_of_lt t.isLt) = heldAt c (prevSt V c t) := by
  obtain ⟨n, hn⟩ := t
  cases n with
  | zero => exact absurd rfl hz
  | succ n => unfold prevSt; rw [dif_neg hz]; rfl

/-- The tables and the scratch can be taken out of the invariant and put back with the scratch at other contents. -/
theorem held_open (c : Dev nD) (M L A M' L' A' : sProp 𝕄) :
    held c M L A ⊢ iprop(tbPt (F := 𝔽) c tbQ (tbl 0) ∗ tbPt (F := 𝔽) c tbK (tbl 1) ∗ M ∗ L ∗ A
      ∗ (iprop(tbPt (F := 𝔽) c tbQ (tbl 0) ∗ tbPt (F := 𝔽) c tbK (tbl 1) ∗ M' ∗ L' ∗ A') -∗ held c M' L' A')) := by
  unfold held; rw [tabs_eq]
  iintro ⟨⟨⟨B1, B2, B3, B4, B5, B6, B7, B8, B9, B10, B11, HM, HL, HA⟩, Hg⟩, HT0, HT1⟩
  iframe HT0 HT1 HM HL HA
  iintro ⟨HT0, HT1, HM, HL, HA⟩
  iframe

theorem PhiS_any (c : Dev nD) (n : ℕ) (h : n ≤ cfgA.N) : PhiS V c n h ⊢ heldAny c := by
  cases n with
  | zero =>
    show iprop(Pipeline.ΦA spec1 c ∗ tabs c) ⊢ _
    rw [PhiA1_eq]
  | succ n =>
    rw [PhiS_succ]
    iintro H
    ihave H' := (held_open c _ _ _ (anyAt c scM) (anyAt c scL) (anyAt c scA)) $$ H
    icases H' with ⟨HT0, HT1, HM, HL, HA, Hb⟩
    iapply Hb
    iframe HT0 HT1
    isplitl [HM]; · iexists _; iexact HM
    isplitl [HL]; · iexists _; iexact HL
    iexists _; iexact HA

abbrev bodyAtA (t : Fin cfgA.N) : Prog (TpuEff nD τ sig (Elt 𝔽) Λ₀ .tc) PUnit :=
  cc1__attn_kernel (F := 𝔽) (cfgA.grid.coords t) tbQ htbQ tbK htbK (msQ t) (hsQ t) (msK t) (hsK t) (msV t) (hsV t) (msO t) (hsO t) scM hscM scL hscL scA hscA

def bodyPre1 (c : Dev nD) (t : Fin cfgA.N) : sProp 𝕄 :=
  iprop((dat1 V c).Φ t.castSucc ∗ (dat1 V c).owesAt () t.castSucc
    ∗ (∃ d, owns (c : Thread nD τ) (msQ t) fullShare ((dat1 V c).before 0 t d))
    ∗ (∃ d, owns (c : Thread nD τ) (msK t) fullShare ((dat1 V c).before 1 t d))
    ∗ (∃ d, owns (c : Thread nD τ) (msV t) fullShare ((dat1 V c).before 2 t d))
    ∗ (∃ d, owns (c : Thread nD τ) (msO t) fullShare ((dat1 V c).before 3 t d)))

def bodyPost1 (c : Dev nD) (t : Fin cfgA.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

end Cert.KernelIdeal.Hand

end
-- ==== Proof.KiAttn.lean ====
/- The attention body meets its obligation at every step of the grid: whatever the kind of the step, it takes the scratch out of
   the invariant, runs, and puts the scratch back at the step's state. -/
import proofs.«401152_j23330262351892_3_alg».proof.Proof.KiAttnCore

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Ideal

local notation "𝕄" => MT nD τ sig Unit (Elt 𝔽) ℕ (UR sig nD τ) ℕ

variable (V : (c : Dev nD) → (b : Ref sig .tc) → Buf (Elt 𝔽) ((c : Thread nD τ).loc b))

set_option maxHeartbeats 4000000 in
/-- A step that does not write the output tile: given the scratch as its run wants it, a run whose stores cover the scratch, and the state they leave. -/
theorem sound_of_run (c : Dev nD) (t : Fin cfgA.N) (hk : kindOf (t.val % 20) ≠ .last) (Sm Sl Sa : sProp 𝕄)
    (Lm Ll : List (View.Piece (Elt 𝔽) S512x1 .f32)) (La : List (View.Piece (Elt 𝔽) S512x1024 .f32))
    (hΦ : PhiS V c t.val (Nat.le_of_lt t.isLt) ⊢ held c Sm Sl Sa)
    (hrun : ∀ K : PUnit → sProp 𝕄,
      iprop(tbPt (F := 𝔽) c tbQ (tbl 0) ∗ tbPt (F := 𝔽) c tbK (tbl 1)
        ∗ owns (c : Thread nD τ) (msQ t) fullShare (blk1 V c 0 t) ∗ owns (c : Thread nD τ) (msK t) fullShare (blk1 V c 1 t) ∗ owns (c : Thread nD τ) (msV t) fullShare (blk1 V c 2 t)
        ∗ Sm ∗ Sl ∗ Sa
        ∗ (iprop(tbPt (F := 𝔽) c tbQ (tbl 0) ∗ tbPt (F := 𝔽) c tbK (tbl 1)
        ∗ owns (c : Thread nD τ) (msQ t) fullShare (blk1 V c 0 t) ∗ owns (c : Thread nD τ) (msK t) fullShare (blk1 V c 1 t) ∗ owns (c : Thread nD τ) (msV t) fullShare (blk1 V c 2 t)
            ∗ (∃ f, scM.view.loc (c : Thread nD τ) ↦[scM.view.set]{fullShare} scM.view.writes (Elt 𝔽) f Lm) ∗ (∃ f, scL.view.loc (c : Thread nD τ) ↦[scL.view.set]{fullShare} scL.view.writes (Elt 𝔽) f Ll) ∗ (∃ f, scA.view.loc (c : Thread nD τ) ↦[scA.view.set]{fullShare} scA.view.writes (Elt 𝔽) f La)) -∗ K ⟨⟩))
        ⊢ wp frame (wpE (defs₀ (F := 𝔽)) Variants.none c none) Set.univ (bodyAtA t) K)
    (hst : stepSt V c t (prevSt V c t) = ⟨St.any.o, backM Lm, backL Ll, backA La⟩)
    (cm : ∀ y, ∃ pc ∈ Lm, y ∈ pc.1.set) (cl : ∀ y, ∃ pc ∈ Ll, y ∈ pc.1.set) (ca : ∀ y, ∃ pc ∈ La, y ∈ pc.1.set) :
    bodyPre1 V c t ⊢ wp frame (wpE (defs₀ (F := 𝔽)) Variants.none c none) Set.univ (bodyAtA t) (fun _ => bodyPost1 V c t) := by
  unfold bodyPre1 bodyPost1 bodyAtA
  simp only [before1_0, before1_1, before1_2]
  rw [show (dat1 V c).owesAt () t.succ = (dat1 V c).owesAt () t.castSucc from rfl,
    show (dat1 V c).Φ t.succ = PhiS V c (t.val + 1) t.isLt from rfl, PhiS_succ, PhiS_castSucc,
    show (dat1 V c).leavesExact 0 t = owns (c : Thread nD τ) (msQ t) fullShare (blk1 V c 0 t) from by
      unfold Dat.leavesExact; rw [in_live0 t, after1_0],
    show (dat1 V c).leavesExact 1 t = owns (c : Thread nD τ) (msK t) fullShare (blk1 V c 1 t) from by
      unfold Dat.leavesExact; rw [in_live1 t, after1_1],
    show (dat1 V c).leavesExact 2 t = owns (c : Thread nD τ) (msV t) fullShare (blk1 V c 2 t) from by
      unfold Dat.leavesExact; rw [in_live2 t, after1_2],
    stAt_eq V c t]
  rw [Dat.leavesExact_idle (dat1 V c) 3 t (out_idle t hk).1 (out_idle t hk).2]
  iintro ⟨HΦ, Ho, ⟨%d0, H0⟩, ⟨%d1, H1⟩, ⟨%d2, H2⟩, H3⟩
  ihave HΦ' := (hΦ.trans (held_open c Sm Sl Sa (owns (c : Thread nD τ) scM fullShare (stepSt V c t (prevSt V c t)).m) (owns (c : Thread nD τ) scL fullShare (stepSt V c t (prevSt V c t)).l) (owns (c : Thread nD τ) scA fullShare (stepSt V c t (prevSt V c t)).a))) $$ HΦ
  icases HΦ' with ⟨HT0, HT1, HS0, HS1, HS2, Hb⟩
  iapply (hrun _)
  iframe HT0 HT1 H0 H1 H2 HS0 HS1 HS2
  iintro ⟨HT0, HT1, H0, H1, H2, ⟨%e0, HS0⟩, ⟨%e1, HS1⟩, ⟨%e2, HS2⟩⟩
  isplitl [Hb HT0 HT1 HS0 HS1 HS2]
  · iapply Hb
    iframe HT0 HT1
    isplitl [HS0]
    · unfold owns; iexists _; isplitr
      swap; · iexact HS0
      ipureintro
      rw [hst]; dsimp only
      exact View.read_writes_of_cover _ _ _ _ _ cm
    isplitl [HS1]
    · unfold owns; iexists _; isplitr
      swap; · iexact HS1
      ipureintro
      rw [hst]; dsimp only
      exact View.read_writes_of_cover _ _ _ _ _ cl
    unfold owns; iexists _; isplitr
    swap; · iexact HS2
    ipureintro
    rw [hst]; dsimp only
    exact View.read_writes_of_cover _ _ _ _ _ ca
  iframe

/-- A step that is not the very first starts from the state the step before left. -/
theorem carried (c : Dev nD) (t : Fin cfgA.N) (hk : kindOf (t.val % 20) ≠ .firstDiag) :
    PhiS V c t.val (Nat.le_of_lt t.isLt) ⊢ heldAt c (prevSt V c t) :=
  Entails.of_eq (PhiS_prev V c t fun h => hk (kind_zero t h))

set_option maxHeartbeats 4000000 in
/-- The last step of a query tile also writes the output tile. -/
theorem sound_last (c : Dev nD) (t : Fin cfgA.N) (hk : kindOf (t.val % 20) = .last) :
    bodyPre1 V c t ⊢ wp frame (wpE (defs₀ (F := 𝔽)) Variants.none c none) Set.univ (bodyAtA t) (fun _ => bodyPost1 V c t) := by
  unfold bodyPre1 bodyPost1 bodyAtA
  simp only [before1_0, before1_1, before1_2]
  rw [show (dat1 V c).owesAt () t.succ = (dat1 V c).owesAt () t.castSucc from rfl,
    show (dat1 V c).Φ t.succ = PhiS V c (t.val + 1) t.isLt from rfl, PhiS_succ, PhiS_castSucc,
    show (dat1 V c).leavesExact 0 t = owns (c : Thread nD τ) (msQ t) fullShare (blk1 V c 0 t) from by
      unfold Dat.leavesExact; rw [in_live0 t, after1_0],
    show (dat1 V c).leavesExact 1 t = owns (c : Thread nD τ) (msK t) fullShare (blk1 V c 1 t) from by
      unfold Dat.leavesExact; rw [in_live1 t, after1_1],
    show (dat1 V c).leavesExact 2 t = owns (c : Thread nD τ) (msV t) fullShare (blk1 V c 2 t) from by
      unfold Dat.leavesExact; rw [in_live2 t, after1_2],
    stAt_eq V c t]
  rw [show (dat1 V c).leavesExact 3 t = owns (c : Thread nD τ) (msO t) fullShare ((dat1 V c).after 3 t) from by
      unfold Dat.leavesExact; rw [out_live t hk], dat1_after3, stAt_eq V c t]
  have hst := stepSt_last V c t (prevSt V c t) hk
  iintro ⟨HΦ, Ho, ⟨%d0, H0⟩, ⟨%d1, H1⟩, ⟨%d2, H2⟩, ⟨%d3, H3⟩⟩
  ihave HΦ' := ((carried V c t (by rw [hk]; decide)).trans (held_open c _ _ _ (owns (c : Thread nD τ) scM fullShare (stepSt V c t (prevSt V c t)).m) (owns (c : Thread nD τ) scL fullShare (stepSt V c t (prevSt V c t)).l) (owns (c : Thread nD τ) scA fullShare (stepSt V c t (prevSt V c t)).a))) $$ HΦ
  icases HΦ' with ⟨HT0, HT1, HS0, HS1, HS2, Hb⟩
  iapply ((RLast V c t hk (prevSt V c t)).2 Set.univ _)
  iframe HT0 HT1 H0 H1 H2 HS0 HS1 HS2
  isplitl [H3]; · iexists _; iexact H3
  iintro ⟨HT0, HT1, H0, H1, H2, ⟨%e0, HS0⟩, ⟨%e1, HS1⟩, ⟨%e2, HS2⟩, ⟨%e3, H3⟩⟩
  isplitl [Hb HT0 HT1 HS0 HS1 HS2]
  · iapply Hb
    iframe HT0 HT1
    isplitl [HS0]
    · unfold owns; iexists _; isplitr
      swap; · iexact HS0
      ipureintro
      rw [hst]; dsimp only
      exact View.read_writes_of_cover _ _ _ _ _ (fun y => coverLast_m (F := 𝔽) ..)
    isplitl [HS1]
    · unfold owns; iexists _; isplitr
      swap; · iexact HS1
      ipureintro
      rw [hst]; dsimp only
      exact View.read_writes_of_cover _ _ _ _ _ (fun y => coverLast_l (F := 𝔽) ..)
    unfold owns; iexists _; isplitr
    swap; · iexact HS2
    ipureintro
    rw [hst]; dsimp only
    exact View.read_writes_of_cover _ _ _ _ _ (fun y => coverLast_a (F := 𝔽) ..)
  iframe Ho H0 H1 H2
  unfold owns; iexists _; isplitr
  swap; · iexact H3
  ipureintro
  rw [hst]; dsimp only
  exact View.read_writes_of_cover _ _ _ _ _ (fun y => coverLast_o (F := 𝔽) ..)

theorem sound_body1 (c : Dev nD) (t : Fin cfgA.N) :
    bodyPre1 V c t ⊢ wp frame (wpE (defs₀ (F := 𝔽)) Variants.none c none) Set.univ (bodyAtA t) (fun _ => bodyPost1 V c t) := by
  rcases kind_total (t.val % 20) with hk | hk | hk | hk | hk
  · exact sound_of_run V c t (by rw [hk]; decide) _ _ _ _ _ _ (PhiS_any V c _ _) (fun K => (RFirstDiag V c t hk).2 Set.univ K)
      (stepSt_firstDiag V c t _ hk) (fun y => coverFirstDiag_m (F := 𝔽) ..) (fun y => coverFirstDiag_l (F := 𝔽) ..) (fun y => coverFirstDiag_a (F := 𝔽) ..)
  · exact sound_last V c t hk
  · exact sound_of_run V c t (by rw [hk]; decide) _ _ _ _ _ _ (PhiS_any V c _ _) (fun K => (RFirstPlain V c t hk).2 Set.univ K)
      (stepSt_firstPlain V c t _ hk) (fun y => coverFirstPlain_m (F := 𝔽) ..) (fun y => coverFirstPlain_l (F := 𝔽) ..) (fun y => coverFirstPlain_a (F := 𝔽) ..)
  · exact sound_of_run V c t (by rw [hk]; decide) _ _ _ _ _ _ (carried V c t (by rw [hk]; decide)) (fun K => (RPlain V c t hk (prevSt V c t)).2 Set.univ K)
      (stepSt_plain V c t _ hk) (fun y => coverPlain_m (F := 𝔽) ..) (fun y => coverPlain_l (F := 𝔽) ..) (fun y => coverPlain_a (F := 𝔽) ..)
  · exact sound_of_run V c t (by rw [hk]; decide) _ _ _ _ _ _ (carried V c t (by rw [hk]; decide)) (fun K => (RDiag V c t hk (prevSt V c t)).2 Set.univ K)
      (stepSt_diag V c t _ hk) (fun y => coverDiag_m (F := 𝔽) ..) (fun y => coverDiag_l (F := 𝔽) ..) (fun y => coverDiag_a (F := 𝔽) ..)

theorem body_obligation1 (c : Dev nD) : BodyObligation (dat1 V c) (defs₀ (F := 𝔽)) Variants.none () Set.univ := fun t => by
  rw [bigSep_W1, bigSep_W1]
  exact sound_body1 V c t

/-- What the region is entered with is the invariant before the first step. -/
theorem attn_in (c : Dev nD) : iprop(Pipeline.ΦA spec1 c ∗ tabs c) ⊢ (dat1 V c).Φ 0 :=
  Idealize.SL.BI.Entails.refl _

/-- After the last step the scratch's contents are forgotten again. -/
theorem attn_out (c : Dev nD) : (dat1 V c).Φ (Fin.last cfgA.N) ⊢ iprop(Pipeline.ΦA spec1 c ∗ tabs c) := by
  rw [show (dat1 V c).Φ (Fin.last cfgA.N) = PhiS V c (Fin.last cfgA.N).val (Nat.le_of_lt_succ (Fin.last cfgA.N).isLt) from rfl, PhiA1_eq]
  exact PhiS_any V c _ _

end Cert.KernelIdeal.Hand

end
-- ==== Proof.KiMain.lean ====
/- The weights are narrowed, the three projections of the embeddings give q, k and v, and the result is the causal
   attention of q, k and v; every argument is at the end what it was at the start. -/
import proofs.«401152_j23330262351892_3_alg».proof.Proof.KiProj
import proofs.«401152_j23330262351892_3_alg».proof.Proof.KiAttn
import proofs.«401152_j23330262351892_3_alg».proof.Proof.Gen.KernelIdeal.Launch
import proofs.«401152_j23330262351892_3_alg».proof.Proof.Gen.KernelIdeal.Regions
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.StableHlo.Run
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝔽" => Ideal

local notation "𝕄" => MT nD τ sig Unit (Elt 𝔽) ℕ (UR sig nD τ) ℕ

variable (m : (ℓ : Loc nD τ sig) → Buf (Elt 𝔽) ℓ) (ρ : Dev nD → PrngReg)

abbrev W0 : Dev nD → Valuation τ sig (Elt 𝔽) := fun c b => (s₀ m ρ).mem ((c : Dev nD), b)
abbrev W1 (c : Dev nD) : Valuation τ sig (Elt 𝔽) := StableHlo.after hostOps0 (W0 m ρ c)
abbrev V1 : (c : Dev nD) → (b : Ref sig .tc) → Buf (Elt 𝔽) ((c : Thread nD τ).loc b) := fun c b => W1 m ρ c b
def W2 (c : Dev nD) : Valuation τ sig (Elt 𝔽) :=
  Pipeline.withArrays spec0 c (W1 m ρ c) fun w => (dat0 (F := 𝔽) (V1 m ρ) c).arrAt w cfg0.N
abbrev V2 : (c : Dev nD) → (b : Ref sig .tc) → Buf (Elt 𝔽) ((c : Thread nD τ).loc b) := fun c b => W2 m ρ c b
def W3 (c : Dev nD) : Valuation τ sig (Elt 𝔽) :=
  Pipeline.withArrays spec1 c (W2 m ρ c) fun w => (dat1 (V2 m ρ) c).arrAt w cfgA.N

def outFinal (c : Dev nD) := (dat1 (V2 m ρ) c).arrAt 3 cfgA.N

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h

theorem W2_arr (c : Dev nD) (w : Fin cfg0.W) :
    W2 m ρ c (Proc.devRef .tc (Pipeline.arrRef spec0 w)) = (dat0 (F := 𝔽) (V1 m ρ) c).arrAt w cfg0.N :=
  Pipeline.withArrays_arr spec0 (launch0 (F := 𝔽)).win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
theorem W3_arr (c : Dev nD) (w : Fin cfgA.W) :
    W3 m ρ c (Proc.devRef .tc (Pipeline.arrRef spec1 w)) = (dat1 (V2 m ρ) c).arrAt w cfgA.N :=
  Pipeline.withArrays_arr spec1 (launch1 (F := 𝔽)).win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb

theorem V1_arg0 (c : Dev nD) : V1 m ρ c main_arg0 = m ((c : Thread nD τ).loc main_arg0) :=
  (W1_of m ρ c main_arg0 (by decide)).trans rfl
theorem V1_w0 (c : Dev nD) :
    V1 m ρ c main_v0 = (truncf (F := 𝔽) .bf16 (m ((c : Thread nD τ).loc main_arg1) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v0) = _
  after_results
theorem V1_w1 (c : Dev nD) :
    V1 m ρ c main_v1 = (truncf (F := 𝔽) .bf16 (m ((c : Thread nD τ).loc main_arg2) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v1) = _
  after_results
theorem V1_w2 (c : Dev nD) :
    V1 m ρ c main_v2 = (truncf (F := 𝔽) .bf16 (m ((c : Thread nD τ).loc main_arg3) : (⟨S1024x1024, .f32⟩ : BufTy).Contents (Elt 𝔽)) bitsLt_bf16_f32
      : (⟨S1024x1024, .bf16⟩ : BufTy).Contents (Elt 𝔽)) := by
  show StableHlo.after hostOps0 (W0 m ρ c) (Proc.devRef .tc main_v2) = _
  after_results

theorem V2_q (c : Dev nD) : V2 m ρ c main_v3_0 = (dat0 (F := 𝔽) (V1 m ρ) c).arrAt 4 cfg0.N := W2_arr m ρ c 4
theorem V2_k (c : Dev nD) : V2 m ρ c main_v3_1 = (dat0 (F := 𝔽) (V1 m ρ) c).arrAt 5 cfg0.N := W2_arr m ρ c 5
theorem V2_v (c : Dev nD) : V2 m ρ c main_v3_2 = (dat0 (F := 𝔽) (V1 m ρ) c).arrAt 6 cfg0.N := W2_arr m ρ c 6

theorem V2_tables (c : Dev nD) : (fun k => V2 m ρ c (pre1.ref k)) = tbl := by
  funext k
  match k with
  | ⟨0, _⟩ =>
    show W2 m ρ c (Proc.devRef .tc main_c) = _
    rw [W2_of_ne m ρ c main_c (by decide)]
    show StableHlo.after hostOps0 (W0 m ρ c) (Proc.devRef .tc main_c) = _
    after_results; rfl
  | ⟨1, _⟩ =>
    show W2 m ρ c (Proc.devRef .tc main_c_0) = _
    rw [W2_of_ne m ρ c main_c_0 (by decide)]
    show StableHlo.after hostOps0 (W0 m ρ c) (Proc.devRef .tc main_c_0) = _
    after_results; rfl

abbrev adm : (p : Fin 2) → (pcfgs (F := 𝔽) p).Adm | ⟨0, _⟩ => cfg0.toPCfg_adm | ⟨1, _⟩ => adm1
def pdats : (p : Fin 2) → (c : Dev nD) → Dat τ (Elt 𝔽) Unit ℕ (UR sig nD τ) ℕ (Pipeline.pin (pcfgs (F := 𝔽)) adm p) c
  | ⟨0, _⟩ => fun c => dat0 (F := 𝔽) (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

abbrev Tₙ (c : Dev nD) : sProp 𝕄 := iprop(StableHlo.held (c : Thread nD τ) (Pipeline.ucRefs τ sig) (W3 m ρ c) ∗ ∃ r, prngReg c r)

theorem rest1_split (c : Dev nD) :
    (Pipeline.unscopedRest (Ix := Unit) (Name := ℕ) (U := UR sig nD τ) (Lvl := ℕ) spec1 c (V2 m ρ c) : sProp 𝕄)
      = iprop(tabs c ∗ Pipeline.unscopedRestP (Ix := Unit) (Name := ℕ) (U := UR sig nD τ) (Lvl := ℕ) pre1 spec1 c (V2 m ρ c)) := by
  rw [Pipeline.unscopedRest_split preFacts1 c (V2 m ρ c), V2_tables m ρ c]
  rfl

set_option backward.isDefEq.respectTransparency.types false in
def reg0 : Pipeline.RegionSeg (pcfgs (F := 𝔽)) adm (pdats m ρ) () defs₀ 𝒱₀ L lv 0 where
  win := (launch0 (F := 𝔽)).win.to₀
  block_pos := (launch0 (F := 𝔽)).block_pos
  stage_whole := (launch0 (F := 𝔽)).stage_whole
  K := PEmpty
  osem k := k.elim
  ho := Pipeline.OwnSemFacts.none _
  hbody c := (body_obligation0 (F := 𝔽) (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hsplit := Pipeline.arrays_of_unscopedBufs (p := 0) (pcfgs (F := 𝔽)) adm (pdats m ρ) (launch0 (F := 𝔽)).win
      (launch0 (F := 𝔽)).arr_whole c ((pdats m ρ 0 c).share_full fun _ => rfl) (V1 m ρ c) fun _ => rfl
    rw [Pipeline.unscopedBufs_held] at hsplit
    iintro ⟨⟨Hbufs, Hreg, Howes⟩, -, -⟩
    ihave Hs := hsplit $$ Hbufs
    icases Hs with ⟨Harr, Hrest⟩
    imodintro
    iframe Harr Hreg Hrest
    isplitr
    · unfold Pipeline.prefHeld; rw [show (Finset.univ : Finset (Fin 0)) = ∅ from rfl, BI.bigSep_empty]; iempintro
    unfold Pipeline.Dat.owesAt Pipeline.owesWithin
    icases Howes with ⟨%Wd, Howes⟩; iexists Wd
    isplitr; · ipureintro; exact fun _ _ => Or.inl trivial
    iexact Howes
  hin c := by
    show _ ⊢ Pipeline.ΦA spec0 c
    unfold Pipeline.ΦA
    iintro ⟨Hreg, -, Hsc⟩
    iframe
  hout c := by
    rw [Pipeline.ownSems0_none]
    show Pipeline.ΦA spec0 c ⊢ _
    unfold Pipeline.ΦA
    iintro ⟨Hsc, Hreg⟩
    iframe
    iempintro
  hexit c := by
    have hjoin := Pipeline.unscopedBufs_of_arrays (p := 0) (pcfgs (F := 𝔽)) adm (Ix := Unit) (Name := ℕ) (U := UR sig nD τ) (Lvl := ℕ)
      (launch0 (F := 𝔽)).win (launch0 (F := 𝔽)).arr_whole c (pdats m ρ) ((pdats m ρ 0 c).share_full fun _ => rfl)
      (V1 m ρ c) (V2 m ρ c) ((pdats m ρ 0 c).arrAt · cfg0.N) (fun w => (W2_arr m ρ c w).symm) (fun b hb => W2_of_ne m ρ c b fun w e => hb (Finset.mem_image.mpr ⟨w, Finset.mem_univ _, e⟩))
    rw [Pipeline.unscopedBufs_held] at hjoin
    iintro ⟨Harr, Howes, Hreg, Hrest⟩
    imodintro
    isplitl [Harr Hrest]
    · iapply hjoin; isplitl [Harr] <;> iassumption
    isplitl [Hreg]; · iexact Hreg
    unfold Pipeline.Dat.owesAt Pipeline.owesWithin
    icases Howes with ⟨%Wd, -, Howes⟩; iexists Wd; iexact Howes

set_option backward.isDefEq.respectTransparency.types false in
def reg1 : Pipeline.RegionSeg (pcfgs (F := 𝔽)) adm (pdats m ρ) () defs₀ 𝒱₀ L lv 1 where
  win := (launch1 (F := 𝔽)).win.to₀
  block_pos := (launch1 (F := 𝔽)).block_pos
  stage_whole := (launch1 (F := 𝔽)).stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop((∃ r, prngReg c r) ∗ tabs c)
  Z c := Pipeline.unscopedRestP (Ix := Unit) (Name := ℕ) (U := UR sig nD τ) (Lvl := ℕ) pre1 spec1 c (V2 m ρ c)
  hentry c := by
    have hsplit := Pipeline.arrays_of_unscopedBufs (p := 1) (pcfgs (F := 𝔽)) adm (pdats m ρ) (launch1 (F := 𝔽)).win
      (launch1 (F := 𝔽)).arr_whole c ((pdats m ρ 1 c).share_full fun _ => rfl) (V2 m ρ c) fun _ => rfl
    rw [Pipeline.unscopedBufs_held] at hsplit
    iintro ⟨⟨Hbufs, Hreg, Howes⟩, -, -⟩
    ihave Hs := hsplit $$ Hbufs
    icases Hs with ⟨Harr, Hrest⟩
    ihave Hs' := (Entails.of_eq (rest1_split m ρ c)) $$ Hrest
    icases Hs' with ⟨Htab, Hrest⟩
    imodintro
    iframe Harr Hreg Hrest
    isplitl [Htab]; · unfold tabs; iexact Htab
    unfold Pipeline.Dat.owesAt Pipeline.owesWithin
    icases Howes with ⟨%Wd, Howes⟩; iexists Wd
    isplitr; · ipureintro; exact fun _ _ => Or.inl trivial
    iexact Howes
  hin c := by
    refine BIBase.Entails.trans ?_ (attn_in (V2 m ρ) c)
    unfold Pipeline.ΦA tabs
    iintro ⟨Hreg, Htab, Hsc⟩
    iframe
  hout c := by
    rw [Pipeline.ownSems0_none]
    refine BIBase.Entails.trans (attn_out (V2 m ρ) c) ?_
    unfold Pipeline.ΦA
    iintro ⟨⟨Hsc, Hreg⟩, Htab⟩
    iframe
    iempintro
  hexit c := by
    have hjoin := Pipeline.unscopedBufs_of_arrays (p := 1) (pcfgs (F := 𝔽)) adm (Ix := Unit) (Name := ℕ) (U := UR sig nD τ) (Lvl := ℕ)
      (launch1 (F := 𝔽)).win (launch1 (F := 𝔽)).arr_whole c (pdats m ρ) ((pdats m ρ 1 c).share_full fun _ => rfl)
      (V2 m ρ c) (fun b => W3 m ρ c b) ((pdats m ρ 1 c).arrAt · cfgA.N) (fun w => (W3_arr m ρ c w).symm) (fun b hb => W3_of_ne m ρ c b fun w e => hb (Finset.mem_image.mpr ⟨w, Finset.mem_univ _, e⟩))
    rw [Pipeline.unscopedBufs_held] at hjoin
    iintro ⟨Harr, Howes, ⟨Hreg, Htab⟩, Hrest⟩
    ihave Hur := (Entails.of_eq (rest1_split m ρ c).symm) $$ [Htab Hrest]
    · isplitl [Htab]; · iexact Htab
      iexact Hrest
    imodintro
    isplitl [Harr Hur Hreg]
    · isplitl [Harr Hur]
      · iapply hjoin; isplitl [Harr] <;> iassumption
      iexact Hreg
    unfold Pipeline.Dat.owesAt Pipeline.owesWithin
    icases Howes with ⟨%Wd, -, Howes⟩; iexists Wd; iexact Howes

abbrev segs : List (Pipeline.Seg (pcfgs (F := 𝔽)) adm (pdats m ρ) () defs₀ 𝒱₀ L lv) :=
  [.host (seg0 m 𝒱₀ L lv fun _ => R), .region (reg0 m ρ), .region (reg1 m ρ)]

theorem main_run (c : Dev nD) : main (F := 𝔽) c = Pipeline.Seg.run (segs m ρ) :=
  main_segs adm (pdats m ρ) () 𝒱₀ L lv _ (reg0 m ρ) (reg1 m ρ) rfl c

theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- What no step writes is at the end what it was at the start. -/
theorem W3_keep (c : Dev nD) (b : Ref sig .tc) (h1 : ∀ w, Pipeline.arrRef spec1 w ≠ b) (h0 : ∀ w, Pipeline.arrRef spec0 w ≠ b)
    (hh : b ∉ hostOps0_W) : W3 m ρ c (Proc.devRef .tc b) = m ((c : Thread nD τ).loc b) :=
  (W3_of_ne m ρ c b h1).trans ((W2_of_ne m ρ c b h0).trans ((W1_of m ρ c b hh).trans rfl))

abbrev u₀ := initOf (Pipeline.cells (Pipeline.pin (pcfgs (F := 𝔽)) adm) (cellOf_inj adm))
  (Pipeline.launchToks (Pipeline.pin (pcfgs (F := 𝔽)) adm) (cellOf_inj adm))

set_option backward.isDefEq.respectTransparency.types false in
theorem run_main : θ_run defs (onTc (τ := τ) (main (F := 𝔽))) ⟨m, fun _ => 0, ρ⟩ (fun r => ∀ c : Dev nD,
      r.2.mem ((c.tc : Thread nD τ).loc main_v4) = outFinal m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := 𝔽)) adm (pdats m ρ) () (cellOf_inj adm) emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := u₀)
    (hu₀ := by
      iintro Hu; imodintro
      isplitl [Hu]
      · iapply (show (ownU _ : sProp 𝕄) ⊢ BI.own (emb₁ u₀) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem (((c : Thread nD τ)).1, b) = W3 m ρ c b)
    (hfin := fun c s' => by
      iintro ⟨⟨Hbufs, -⟩, HSI⟩
      unfold StableHlo.held
      imodintro
      iapply (pointsTo_read_all (Pipeline.ucRefs τ sig) (fun b => (((c : Thread nD τ)).1, b)) (W3 m ρ c) s')
      isplitl [Hbufs] <;> iassumption)
    (hQ := fun s h c =>
      ⟨(h c _ (mem_uc main_v4 (by decide))).trans (W3_arr m ρ c 3),
       (h c _ (mem_uc main_arg0 (by decide))).trans ((W3_of_ne m ρ c main_arg0 (by decide)).trans ((W2_arr m ρ c 0).trans
         (((dat0 (F := 𝔽) (V1 m ρ) c).arrAt_in 0 rfl _).trans (V1_arg0 m ρ c)))),
       (h c _ (mem_uc main_arg1 (by decide))).trans (W3_keep m ρ c _ (by decide) (by decide) (by decide)),
       (h c _ (mem_uc main_arg2 (by decide))).trans (W3_keep m ρ c _ (by decide) (by decide) (by decide)),
       (h c _ (mem_uc main_arg3 (by decide))).trans (W3_keep m ρ c _ (by decide) (by decide) (by decide))⟩)

end Cert.KernelIdeal.Hand

end
-- ==== Proof.LibDots.lean ====
import Idealize.ShloMosaic.Lib.StackMember

/- Two matrix products into the all-zero array, read at one entry: the sum over the contracted coordinate of the
   products of the operands' entries. -/

namespace Cert.Lib.Dots

open Idealize.ShloMosaic Idealize.ShloMosaic.ValueIdx

/-- An M×K array times the transpose of an N×K array: the contraction index is one coordinate below K. -/
theorem matmul_zero_rowsT_apply {M K N : Nat} {φ₁ φ₂ : FTy} (prec : Option ContractPrecision)
    (A : FVec Ideal ⟨2, ![M, K]⟩ φ₁) (B : FVec Ideal ⟨2, ![N, K]⟩ φ₂) (r : Fin M) (c : Fin N) :
    matmul (DotDims.transposedRhs M K N) prec A B (constant ⟨2, ![M, N]⟩ .f32 0x00000000#32) (ix2 r c)
      = ∑ k : Fin K, A (ix2 r k) * B (ix2 c k) := by
  show FloatOps.matmul _ prec A B _ (ix2 r c) = _
  rw [Ideal.matmul_constant_zero_apply, ← Equiv.sum_comp (contrEquiv1 (DotDims.transposedRhs M K N) K rfl rfl).symm]
  refine Finset.sum_congr rfl fun k _ => ?_
  have c2 := contrEquiv1_symm_val (DotDims.transposedRhs M K N) K rfl rfl k
  congr 2 <;> funext ax <;> apply Fin.ext <;> match ax with
  | ⟨0, _⟩ => simp [DotDims.lhsIdx, DotDims.rhsIdx, DotDims.transposedRhs]; rfl
  | ⟨1, _⟩ => simp [DotDims.lhsIdx, DotDims.rhsIdx, DotDims.transposedRhs]; exact c2

/-- An M×K array times a K×N array, accumulated into zero, is the plain product: at an entry, the sum over the contracted coordinate. -/
theorem matmul_zero_rowsCols_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (r : Fin M) (c : Fin N) :
    matmul (F := Ideal) (⟨[1], [0], [0], [1], [], [], w⟩ : DotDims _ _ _) prec A B (constant ⟨2, ![M, N]⟩ .f32 0x00000000#32) (ix2 r c)
      = ∑ k : Fin K, A (ix2 r k) * B (ix2 k c) :=
  (congrFun (matmul_zero_eq_dotGeneral _ prec A B) _).trans (StackMember.dotGeneral_plain_apply prec A B r c)

end Cert.Lib.Dots
-- ==== Proof.AttnSpec.lean ====
/- Causal self-attention over the extended reals, entry by entry: the projections x·W, the scaled inner products of queries and keys with a
   key after the query masked to ⊥, and the softmax-weighted sum of the value rows; also the scores and values of a row's n-th tile of 256 keys. -/
import Idealize.ShloMosaic.PureOps.Ideal
import Mathlib.Data.Finset.Fold
import Mathlib.Data.Fintype.BigOperators
import Mathlib.Algebra.BigOperators.Group.Finset.Basic

namespace Cert.AttnSpec

open Idealize.ShloMosaic
open scoped BigOperators

abbrev Arr3 := Fin 4 → Fin 2048 → Fin 1024 → EReal
abbrev Mat := Fin 1024 → Fin 1024 → EReal

noncomputable def proj (x : Arr3) (w : Mat) : Arr3 := fun b s a => ∑ e : Fin 1024, x b s e * w e a

noncomputable def rawScore (q k : Arr3) (b : Fin 4) (i j : Fin 2048) : EReal :=
  (∑ a : Fin 1024, q b i a * k b j a) * (((1 / 32 : ℝ) : ℝ) : EReal)

noncomputable def score (q k : Arr3) (b : Fin 4) (i j : Fin 2048) : EReal :=
  if j.val ≤ i.val then rawScore q k b i j else ⊥

noncomputable def attend (q k v : Arr3) : Arr3 := fun b i a =>
  ∑ j : Fin 2048,
    Ideal.div (Ideal.exp (score q k b i j - (Finset.univ : Finset (Fin 2048)).fold max ⊥ (score q k b i)))
      (∑ y : Fin 2048, Ideal.exp (score q k b i y - (Finset.univ : Finset (Fin 2048)).fold max ⊥ (score q k b i)))
      * v b j a

noncomputable def result (x : Arr3) (wq wk wv : Mat) : Arr3 :=
  attend (proj x wq) (proj x wk) (proj x wv)

/-- The masked scores of query row i against the 256 keys of tile n. -/
noncomputable def tileScore (q k : Arr3) (b : Fin 4) (i : Fin 2048) : ℕ → Fin 256 → EReal := fun n j =>
  if h : n * 256 + j.val < 2048 then score q k b i ⟨n * 256 + j.val, h⟩ else ⊥

/-- Column a of the value rows of tile n. -/
noncomputable def tileVal (v : Arr3) (b : Fin 4) (a : Fin 1024) : ℕ → Fin 256 → EReal := fun n j =>
  if h : n * 256 + j.val < 2048 then v b ⟨n * 256 + j.val, h⟩ a else 0

end Cert.AttnSpec
-- ==== Proof.KiProjValue.lean ====
import proofs.«401152_j23330262351892_3_alg».proof.Proof.KiProj
import proofs.«401152_j23330262351892_3_alg».proof.Proof.LibDots
import proofs.«401152_j23330262351892_3_alg».proof.Proof.AttnSpec
import Idealize.ShloMosaic.Lib.Pipeline.Value
import Idealize.ShloMosaic.Lib.ValueIdx
import Idealize.ShloMosaic.PureOps.Ideal.Laws

/- After its 16 points the projection call leaves q, k and v equal to the embeddings times the three weight matrices:
   each point stores its block of 512 rows times a whole matrix, and the 16 blocks tile each output array. -/

noncomputable section

namespace Cert.KernelIdeal.HandValue

open Cert.KernelIdeal Cert.KernelIdeal.Gen Cert.KernelIdeal.Hand
open Idealize.ShloMosaic Idealize.ShloMosaic.TcCoe Idealize.ShloMosaic.ValueIdx Cert.AttnSpec

theorem tail_ix3 (z : Fin 1) (r : Fin 512) (a : Fin 1024) :
    ((fun a' => ix3 z r a a'.succ) : S512x1024.Idx) = ix2 r a := eq_ix2 _

theorem cons_ix2 (r : Fin 512) (e : Fin 1024) :
    ((Fin.cons ⟨0, Nat.one_pos⟩ (ix2 r e : S512x1024.Idx)) : S1x512x1024.Idx) = ix3 (0 : Fin 1) r e := eq_ix3 _

/-- On the extended reals the narrowing conversions are the identity and the product into a zero accumulator is the plain sum. -/
theorem pay2_apply (x0 : Vec Ideal S1x512x1024 .f32) (x1 : Vec Ideal S1024x1024 .bf16) (z : Fin 1) (r : Fin 512) (a : Fin 1024) :
    k0_pay2 x0 x1 (ix3 z r a) = ∑ e : Fin 1024, x0 (ix3 0 r e) * x1 (ix2 e a) := by
  unfold k0_pay2 k0_pay1
  dsimp only
  rw [shapeCast_addUnit_apply ![512, 1024], tail_ix3, truncf_apply]
  unfold dot_S512x1024_S1024x1024_S512x1024_1_0_0_1_n_n
  rw [Cert.Lib.Dots.matmul_zero_rowsCols_apply]
  refine Finset.sum_congr rfl fun e _ => ?_
  rw [truncf_apply, shapeCast_dropUnit_apply ![512, 1024], shapeCast_self, cons_ix2]

/-- The block index at point t: batch t / 4, row block t % 4, column block 0. -/
abbrev Walks (t : Fin cfg0.N) (ix : Fin 3 → ℕ) : Prop := ix 0 = t.val / 4 ∧ ix 1 = t.val % 4 ∧ ix 2 = 0

theorem idx0 : ∀ t : Fin cfg0.N, Walks t (win0_0.index t) := (by decide +kernel : ∀ t : Fin grid0.N, _)
theorem idx4 : ∀ t : Fin cfg0.N, Walks t (win0_4.index t) := (by decide +kernel : ∀ t : Fin grid0.N, _)
theorem idx5 : ∀ t : Fin cfg0.N, Walks t (win0_5.index t) := (by decide +kernel : ∀ t : Fin grid0.N, _)
theorem idx6 : ∀ t : Fin cfg0.N, Walks t (win0_6.index t) := (by decide +kernel : ∀ t : Fin grid0.N, _)

/-- Each weight matrix is one block, at every point. -/
theorem idxW : ∀ t : Fin cfg0.N, (win0_1.index t 0 = 0 ∧ win0_1.index t 1 = 0)
    ∧ (win0_2.index t 0 = 0 ∧ win0_2.index t 1 = 0) ∧ (win0_3.index t 0 = 0 ∧ win0_3.index t 1 = 0) :=
  (by decide +kernel : ∀ t : Fin grid0.N, _)

variable (V : (c : Dev nD) → (b : Ref sig .tc) → Buf (Elt Ideal) ((c : Thread nD τ).loc b)) (c : Dev nD)
  (t : Fin cfg0.N)

theorem hz3 : (![0, 0, 0] : Fin 3 → Nat) = fun _ => 0 := funext fun a => by fin_cases a <;> rfl

/-- The embeddings times a matrix, as the contents of an output array. -/
def arrP (W : S1024x1024.Idx → EReal) : S4x2048x1024.Idx → EReal := fun i =>
  proj (fun b s e => (V c main_arg0 : S4x2048x1024.Idx → EReal) (ix3 b s e)) (fun e a => W (ix2 e a)) (i 0) (i 1) (i 2)

/-- Point t stores the product of rows 512·(t % 4) … of batch t / 4 with the matrix, and entry k is where entry y of that block sits. -/
theorem store_apply (wb : Vec Ideal S1024x1024 .bf16) (W : S1024x1024.Idx → EReal) (hW : ∀ x, wb x = W x)
    (y : S1x512x1024.Idx) (k : S4x2048x1024.Idx) (ix : Fin 3 → ℕ) (h : Walks t ix)
    (hk : ∀ a : Fin 3, (k a : ℕ) = ix a * S1x512x1024.size a + 1 * (y a : ℕ)) :
    projStore (k0_pay2 (blk0 V c 0 t) wb) y = arrP V c W k := by
  obtain ⟨z, r, a, rfl⟩ : ∃ z r a, y = ix3 z r a := ⟨y 0, y 1, y 2, eq_ix3 y⟩
  obtain ⟨h0, h1, h2⟩ := h
  obtain ⟨g0, g1, g2⟩ := idx0 t
  have hk0 : (k 0 : ℕ) = ix 0 * 1 + 1 * z.val := hk 0
  have hk1 : (k 1 : ℕ) = ix 1 * 512 + 1 * r.val := hk 1
  have hk2 : (k 2 : ℕ) = ix 2 * 1024 + 1 * a.val := hk 2
  unfold projStore
  rw [View.canon_unit_zero hz3, pay2_apply]
  unfold arrP proj
  refine Finset.sum_congr rfl fun e _ => ?_
  congr 1
  · unfold blk0
    rw [View.read_apply]
    refine congrArg (V c main_arg0) (funext fun d => Fin.ext ?_)
    match d with
    | ⟨0, _⟩ => show win0_0.index t 0 * 1 + 1 * 0 = (k 0 : ℕ); omega
    | ⟨1, _⟩ => show win0_0.index t 1 * 512 + 1 * r.val = (k 1 : ℕ); omega
    | ⟨2, _⟩ => show win0_0.index t 2 * 1024 + 1 * e.val = e.val; omega
  · rw [hW, show a = k 2 from Fin.ext (by show a.val = (k 2 : ℕ); omega)]

/-- Row s of batch b lies in the block of point 4·b + s / 512. -/
theorem inBlock (i : S4x2048x1024.Idx) : ∃ tt : Fin cfg0.N, ∀ ix : Fin 3 → ℕ, Walks tt ix → ∀ a : Fin 3,
    ix a * S1x512x1024.size a ≤ (i a : ℕ) ∧ (i a : ℕ) < ix a * S1x512x1024.size a + S1x512x1024.size a := by
  have hi0 : (i 0 : ℕ) < 4 := (i 0).isLt
  have hi1 : (i 1 : ℕ) < 2048 := (i 1).isLt
  have hi2 : (i 2 : ℕ) < 1024 := (i 2).isLt
  have hN : cfg0.N = 16 := N_0
  refine ⟨⟨4 * (i 0 : ℕ) + (i 1 : ℕ) / 512, by rw [hN]; omega⟩, fun ix ⟨h0, h1, h2⟩ a => ?_⟩
  have h0' : ix 0 = (4 * (i 0 : ℕ) + (i 1 : ℕ) / 512) / 4 := h0
  have h1' : ix 1 = (4 * (i 0 : ℕ) + (i 1 : ℕ) / 512) % 4 := h1
  match a with
  | ⟨0, _⟩ => show ix 0 * 1 ≤ (i 0 : ℕ) ∧ (i 0 : ℕ) < ix 0 * 1 + 1; omega
  | ⟨1, _⟩ => show ix 1 * 512 ≤ (i 1 : ℕ) ∧ (i 1 : ℕ) < ix 1 * 512 + 512; omega
  | ⟨2, _⟩ => show ix 2 * 1024 ≤ (i 2 : ℕ) ∧ (i 2 : ℕ) < ix 2 * 1024 + 1024; omega

theorem q_final (b : Fin 4) (s : Fin 2048) (a : Fin 1024) :
    (dat0 (F := Ideal) V c).arrAt 4 cfg0.N (ix3 b s a)
      = Cert.AttnSpec.proj (fun b s e => (V c main_arg0 : S4x2048x1024.Idx → EReal) (ix3 b s e))
          (fun e a => (V c main_v0 : S1024x1024.Idx → EReal) (ix2 e a)) b s a := by
  refine congrFun ((dat0 V c).arrAt_eq_of_cover 4 (arrP V c (V c main_v0)) (fun t _ => ?_) fun i => ?_) (ix3 b s a)
  · show (cfg0.win 4).cut (grid0.coords t) ((dat0 V c).after 4 t) = _
    rw [dat0_after4]
    funext (y : S1x512x1024.Idx)
    show projStore (k0_pay2 (blk0 V c 0 t) (blk0 V c 1 t)) y = _
    rw [View.read_apply]
    refine store_apply V c t _ _ (fun x => ?_) y _ _ (idx4 t) fun _ => rfl
    unfold blk0
    rw [View.read_apply]
    exact congrArg (V c main_v0) (Shape.idx_ext₂ (win0_1.rect_emb_val_of_index_zero t 0 (idxW t).1.1 x)
      (win0_1.rect_emb_val_of_index_zero t 1 (idxW t).1.2 x))
  · obtain ⟨tt, h⟩ := inBlock i
    refine ⟨tt, flush0_4 tt, ?_⟩
    show i ∈ ((View.whole main_v3_0).slice (win0_4.rect tt)).set
    rw [View.set_slice_whole, Rect.mem_set_unit]
    exact h _ (idx4 tt)

theorem k_final (b : Fin 4) (s : Fin 2048) (a : Fin 1024) :
    (dat0 (F := Ideal) V c).arrAt 5 cfg0.N (ix3 b s a)
      = Cert.AttnSpec.proj (fun b s e => (V c main_arg0 : S4x2048x1024.Idx → EReal) (ix3 b s e))
          (fun e a => (V c main_v1 : S1024x1024.Idx → EReal) (ix2 e a)) b s a := by
  refine congrFun ((dat0 V c).arrAt_eq_of_cover 5 (arrP V c (V c main_v1)) (fun t _ => ?_) fun i => ?_) (ix3 b s a)
  · show (cfg0.win 5).cut (grid0.coords t) ((dat0 V c).after 5 t) = _
    rw [dat0_after5]
    funext (y : S1x512x1024.Idx)
    show projStore (k0_pay2 (blk0 V c 0 t) (blk0 V c 2 t)) y = _
    rw [View.read_apply]
    refine store_apply V c t _ _ (fun x => ?_) y _ _ (idx5 t) fun _ => rfl
    unfold blk0
    rw [View.read_apply]
    exact congrArg (V c main_v1) (Shape.idx_ext₂ (win0_2.rect_emb_val_of_index_zero t 0 (idxW t).2.1.1 x)
      (win0_2.rect_emb_val_of_index_zero t 1 (idxW t).2.1.2 x))
  · obtain ⟨tt, h⟩ := inBlock i
    refine ⟨tt, flush0_5 tt, ?_⟩
    show i ∈ ((View.whole main_v3_1).slice (win0_5.rect tt)).set
    rw [View.set_slice_whole, Rect.mem_set_unit]
    exact h _ (idx5 tt)

theorem v_final (b : Fin 4) (s : Fin 2048) (a : Fin 1024) :
    (dat0 (F := Ideal) V c).arrAt 6 cfg0.N (ix3 b s a)
      = Cert.AttnSpec.proj (fun b s e => (V c main_arg0 : S4x2048x1024.Idx → EReal) (ix3 b s e))
          (fun e a => (V c main_v2 : S1024x1024.Idx → EReal) (ix2 e a)) b s a := by
  refine congrFun ((dat0 V c).arrAt_eq_of_cover 6 (arrP V c (V c main_v2)) (fun t _ => ?_) fun i => ?_) (ix3 b s a)
  · show (cfg0.win 6).cut (grid0.coords t) ((dat0 V c).after 6 t) = _
    rw [dat0_after6]
    funext (y : S1x512x1024.Idx)
    show projStore (k0_pay2 (blk0 V c 0 t) (blk0 V c 3 t)) y = _
    rw [View.read_apply]
    refine store_apply V c t _ _ (fun x => ?_) y _ _ (idx6 t) fun _ => rfl
    unfold blk0
    rw [View.read_apply]
    exact congrArg (V c main_v2) (Shape.idx_ext₂ (win0_3.rect_emb_val_of_index_zero t 0 (idxW t).2.2.1 x)
      (win0_3.rect_emb_val_of_index_zero t 1 (idxW t).2.2.2 x))
  · obtain ⟨tt, h⟩ := inBlock i
    refine ⟨tt, flush0_6 tt, ?_⟩
    show i ∈ ((View.whole main_v3_2).slice (win0_6.rect tt)).set
    rw [View.set_slice_whole, Rect.mem_set_unit]
    exact h _ (idx6 tt)

end Cert.KernelIdeal.HandValue
end
-- ==== Proof.KiAttnIdx.lean ====
/- The steps of a batch of the attention call, by number: step s works on query tile qt and key tile kt, the pairs
   (0,0) (0,1) (1,0) … (1,3) (2,0) … (2,5) (3,0) … (3,7) in order; the windows' block indices and the step's two words are these tiles. -/
import proofs.«401152_j23330262351892_3_alg».proof.Proof.KiAttn

noncomputable section

namespace Cert.KernelIdeal.HandValue

open Cert.KernelIdeal Cert.KernelIdeal.Gen Cert.KernelIdeal.Hand
open Idealize.ShloMosaic

def qtOf (s : ℕ) : ℕ := if s < 2 then 0 else if s < 6 then 1 else if s < 12 then 2 else 3
def ktOf (s : ℕ) : ℕ := if s < 2 then s else if s < 6 then s - 2 else if s < 12 then s - 6 else s - 12

theorem idxA_facts : ∀ t : Fin cfgA.N,
    ((cfgA.win 0).index t 0 = t.val / 20 ∧ (cfgA.win 0).index t 1 = qtOf (t.val % 20) ∧ (cfgA.win 0).index t 2 = 0)
    ∧ ((cfgA.win 1).index t 0 = t.val / 20 ∧ (cfgA.win 1).index t 1 = ktOf (t.val % 20) ∧ (cfgA.win 1).index t 2 = 0)
    ∧ ((cfgA.win 2).index t 0 = t.val / 20 ∧ (cfgA.win 2).index t 1 = ktOf (t.val % 20) ∧ (cfgA.win 2).index t 2 = 0)
    ∧ ((cfgA.win 3).index t 0 = t.val / 20 ∧ (cfgA.win 3).index t 1 = qtOf (t.val % 20) ∧ (cfgA.win 3).index t 2 = 0) := by
  decide +kernel

theorem words_facts : ∀ (c : Dev nD) (t : Fin cfgA.N),
    (wq c t).toNat = qtOf (t.val % 20) ∧ (wk c t).toNat = ktOf (t.val % 20) := by
  decide +kernel

end Cert.KernelIdeal.HandValue
end
-- ==== Proof.KiAttnCover.lean ====
/- From the last steps' tiles to the whole output array: rows qt * 512 … of a batch are the rows of the tile that the query tile's last
   step leaves, so if each such tile holds its rows of a function G the array ends holding G. -/
import proofs.«401152_j23330262351892_3_alg».proof.Proof.KiAttnIdx
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx

theorem out_flush : ∀ t : Fin cfgA.N, kindOf (t.val % 20) = .last → (cfgA.win 3).flush t = true := by
  decide +kernel

/-- The last step of query tile q: the step of its last key tile. -/
def lastOf (q : ℕ) : ℕ := if q = 0 then 1 else if q = 1 then 5 else if q = 2 then 11 else 19

theorem last_facts : ∀ q < 4, lastOf q < 20 ∧ kindOf (lastOf q) = .last ∧ qtOf (lastOf q) = q := by
  decide

variable (V : (c : Dev nD) → (b : Ref sig .tc) → Buf (Elt Ideal) ((c : Thread nD τ).loc b))

/-- A function of (batch, row, column) as contents of the output array. -/
def arrO (G : Fin 4 → Fin 2048 → Fin 1024 → EReal) (c : Dev nD) :
    Buf (Elt Ideal) ((c : Thread nD τ).loc main_v4) :=
  fun i => G (i 0) (i 1) (i 2)

/-- The tile a last step leaves is its block of G: its row r is row qt * 512 + r of batch t / 20. -/
theorem flushed3_eq (c : Dev nD) (G : Fin 4 → Fin 2048 → Fin 1024 → EReal)
    (H : ∀ t : Fin cfgA.N, kindOf (t.val % 20) = .last → ∀ (r : Fin 512) (a : Fin 1024) (bb : Fin 4) (i : Fin 2048),
      bb.val = t.val / 20 → i.val = qtOf (t.val % 20) * 512 + r.val →
      (stAt V c t.val t.isLt).o (ix3 0 r a) = G bb i a)
    (t : Fin cfgA.N) (hf : (cfgA.win 3).flush t = true) :
    (dat1 V c).flushed 3 t = ((cfgA.win 3).blk t).view.read (Elt Ideal) (arrO G c) := by
  have hk : kindOf (t.val % 20) = .last := by
    by_contra hne
    rw [(out_idle t hne).2] at hf
    exact Bool.false_ne_true hf
  obtain ⟨-, -, -, h0, h1, h2⟩ := idxA_facts t
  show (cfgA.win 3).cut (cfgA.grid.coords t) ((dat1 V c).after 3 t) = _
  rw [dat1_after3]
  funext (y : S1x512x1024.Idx)
  rw [View.read_apply]
  obtain ⟨z, r, a, rfl⟩ : ∃ z r a, y = ix3 z r a := ⟨y 0, y 1, y 2, eq_ix3 y⟩
  obtain rfl : z = 0 := Subsingleton.elim _ _
  show (stAt V c t.val t.isLt).o (ix3 0 r a) = arrO G c (((cfgA.win 3).blk t).view.emb (ix3 0 r a))
  unfold arrO
  exact (H t hk r a _ _
      (by show (cfgA.win 3).index t (0 : Fin 3) * 1 + 1 * 0 = t.val / 20; omega)
      (by show (cfgA.win 3).index t (1 : Fin 3) * 512 + 1 * r.val = qtOf (t.val % 20) * 512 + r.val; omega)).trans
    (congrArg (G _ _) (Fin.ext (by show a.val = (cfgA.win 3).index t (2 : Fin 3) * 1024 + 1 * a.val; omega)))

/-- Row s of batch b lies in the block of the last step of query tile s / 512 of batch b. -/
theorem cover3 (i : S4x2048x1024.Idx) :
    ∃ t : Fin cfgA.N, (cfgA.win 3).flush t = true ∧ i ∈ ((cfgA.win 3).blk t).view.set := by
  have hi0 : (i 0 : ℕ) < 4 := (i 0).isLt
  have hi1 : (i 1 : ℕ) < 2048 := (i 1).isLt
  have hi2 : (i 2 : ℕ) < 1024 := (i 2).isLt
  have hN : cfgA.N = 80 := N_A
  obtain ⟨hl20, hkind, hqt⟩ := last_facts ((i 1 : ℕ) / 512) (by omega)
  obtain ⟨tt, htt⟩ : ∃ tt : Fin cfgA.N, tt.val = 20 * (i 0 : ℕ) + lastOf ((i 1 : ℕ) / 512) :=
    ⟨⟨20 * (i 0 : ℕ) + lastOf ((i 1 : ℕ) / 512), by rw [hN]; omega⟩, rfl⟩
  have hmod : tt.val % 20 = lastOf ((i 1 : ℕ) / 512) := by rw [htt]; omega
  obtain ⟨-, -, -, h0, h1, h2⟩ := idxA_facts tt
  refine ⟨tt, out_flush tt (by rw [hmod]; exact hkind), ?_⟩
  show i ∈ ((View.whole main_v4).slice ((cfgA.win 3).rect tt)).set
  rw [View.set_slice_whole, Rect.mem_set_unit]
  intro a
  match a with
  | ⟨0, _⟩ =>
    show (cfgA.win 3).index tt (0 : Fin 3) * 1 ≤ (i 0 : ℕ) ∧ (i 0 : ℕ) < (cfgA.win 3).index tt (0 : Fin 3) * 1 + 1
    omega
  | ⟨1, _⟩ =>
    show (cfgA.win 3).index tt (1 : Fin 3) * 512 ≤ (i 1 : ℕ) ∧ (i 1 : ℕ) < (cfgA.win 3).index tt (1 : Fin 3) * 512 + 512
    rw [h1, hmod, hqt]; omega
  | ⟨2, _⟩ =>
    show (cfgA.win 3).index tt (2 : Fin 3) * 1024 ≤ (i 2 : ℕ) ∧ (i 2 : ℕ) < (cfgA.win 3).index tt (2 : Fin 3) * 1024 + 1024
    omega

/-- After the 80 steps the output array is G, when every last step's tile is its block of G. -/
theorem attn_arr_of_last (c : Dev nD) (G : Fin 4 → Fin 2048 → Fin 1024 → EReal)
    (H : ∀ t : Fin cfgA.N, kindOf (t.val % 20) = .last → ∀ (r : Fin 512) (a : Fin 1024) (bb : Fin 4) (i : Fin 2048),
      bb.val = t.val / 20 → i.val = qtOf (t.val % 20) * 512 + r.val →
      (stAt V c t.val t.isLt).o (ix3 0 r a) = G bb i a)
    (b : Fin 4) (i : Fin 2048) (a : Fin 1024) : (dat1 V c).arrAt 3 cfgA.N (ix3 b i a) = G b i a := by
  rw [(dat1 V c).arrAt_eq_of_cover 3 (arrO G c) (flushed3_eq V c G H) cover3]
  rfl

end Cert.KernelIdeal.HandValue
end
-- ==== Proof.KiPieces.lean ====
/- What each buffer holds after a step, read back over anything: the body's payload of what the step loaded.
   A step that resets starts from the reset values k1_pay1, k1_pay2, k1_pay3 in place of the totals carried. -/
import proofs.«401152_j23330262351892_3_alg».proof.Proof.KiCovers
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F] (c : Dev nD) (i : grid1.Coords)
  (arg4 : Memref sig .tc .vmem S1x512x1024 .bf16) (harg4 : arg4.IsWhole) (arg5 : Memref sig .tc .vmem S1x256x1024 .bf16) (harg5 : arg5.IsWhole)
  (arg6 : Memref sig .tc .vmem S1x256x1024 .bf16) (harg6 : arg6.IsWhole) (arg7 : Memref sig .tc .vmem S1x512x1024 .f32) (harg7 : arg7.IsWhole)
  (arg8 : Memref sig .tc .vmem S512x1 .f32) (harg8 : arg8.IsWhole) (arg9 : Memref sig .tc .vmem S512x1 .f32) (harg9 : arg9.IsWhole)
  (arg10 : Memref sig .tc .vmem S512x1024 .f32) (harg10 : arg10.IsWhole)
  (xt0 : TbBuf (F := F) c tbQ) (xt1 : TbBuf (F := F) c tbK)
  (xq : Vec F S1x512x1024 .bf16) (xk : Vec F S1x256x1024 .bf16) (xv : Vec F S1x256x1024 .bf16)

theorem hz2 : (![0, 0] : Fin 2 → Nat) = fun _ => 0 := funext fun a => by fin_cases a <;> rfl
theorem hz3 : (![0, 0, 0] : Fin 3 → Nat) = fun _ => 0 := funext fun a => by fin_cases a <;> rfl

section
variable (h0 : isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem back_fdiag_m (f : arg8.view.ty.Contents (Elt F)) :
    arg8.view.read (Elt F) (arg8.view.writes (Elt F) f (runFirstDiag c i arg4 harg4 arg5 harg5 arg6 harg6 arg7 harg7 arg8 harg8 arg9 harg9 arg10 harg10 xt0 xt1 xq xk xv h0 h1 h2 h3).1.1) = k1_pay8 (k1_pay18 (wordAt c tbQ i xt0) (wordAt c tbK i xt1) xq xk k1_pay1) := by
  rw [View.read_writes_eq_canon _ _ _ fun y => coverFirstDiag_m (F := F) ..]
  unfold runFirstDiag
  dsimp only
  sl_unfold_words
  rw [View.canon_cons_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
  rfl
theorem back_fdiag_l (f : arg9.view.ty.Contents (Elt F)) :
    arg9.view.read (Elt F) (arg9.view.writes (Elt F) f (runFirstDiag c i arg4 harg4 arg5 harg5 arg6 harg6 arg7 harg7 arg8 harg8 arg9 harg9 arg10 harg10 xt0 xt1 xq xk xv h0 h1 h2 h3).1.2.1) = k1_pay6 (k1_pay21 (wordAt c tbQ i xt0) (wordAt c tbK i xt1) xq xk k1_pay1 k1_pay1 k1_pay2) := by
  rw [View.read_writes_eq_canon _ _ _ fun y => coverFirstDiag_l (F := F) ..]
  unfold runFirstDiag
  dsimp only
  sl_unfold_words
  rw [View.canon_cons_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
  rfl
theorem back_fdiag_a (f : arg10.view.ty.Contents (Elt F)) :
    arg10.view.read (Elt F) (arg10.view.writes (Elt F) f (runFirstDiag c i arg4 harg4 arg5 harg5 arg6 harg6 arg7 harg7 arg8 harg8 arg9 harg9 arg10 harg10 xt0 xt1 xq xk xv h0 h1 h2 h3).1.2.2) = k1_pay7 (k1_pay17 xv) (k1_pay19 (wordAt c tbQ i xt0) (wordAt c tbK i xt1) xq xk k1_pay1 k1_pay1) (k1_pay20 (wordAt c tbQ i xt0) (wordAt c tbK i xt1) xq xk k1_pay1) k1_pay3 := by
  rw [View.read_writes_eq_canon _ _ _ fun y => coverFirstDiag_a (F := F) ..]
  unfold runFirstDiag
  dsimp only
  sl_unfold_words
  rw [View.canon_cons_unit_zero (S := S512x1024) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
  rfl
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : isLast (wordAt c tbQ i xt0) (wordAt c tbK i xt1))
theorem back_last_m (f : arg8.view.ty.Contents (Elt F)) :
    arg8.view.read (Elt F) (arg8.view.writes (Elt F) f (runLast c i arg4 harg4 arg5 harg5 arg6 harg6 arg7 harg7 arg8 harg8 arg9 harg9 arg10 harg10 xt0 xt1 xq xk xv sm sl sa h0 h1 h2 h3).1.1) = k1_pay8 (k1_pay18 (wordAt c tbQ i xt0) (wordAt c tbK i xt1) xq xk sm) := by
  rw [View.read_writes_eq_canon _ _ _ fun y => coverLast_m (F := F) ..]
  unfold runLast
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
theorem back_last_l (f : arg9.view.ty.Contents (Elt F)) :
    arg9.view.read (Elt F) (arg9.view.writes (Elt F) f (runLast c i arg4 harg4 arg5 harg5 arg6 harg6 arg7 harg7 arg8 harg8 arg9 harg9 arg10 harg10 xt0 xt1 xq xk xv sm sl sa h0 h1 h2 h3).1.2.1) = k1_pay6 (k1_pay21 (wordAt c tbQ i xt0) (wordAt c tbK i xt1) xq xk sm sm sl) := by
  rw [View.read_writes_eq_canon _ _ _ fun y => coverLast_l (F := F) ..]
  unfold runLast
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
theorem back_last_a (f : arg10.view.ty.Contents (Elt F)) :
    arg10.view.read (Elt F) (arg10.view.writes (Elt F) f (runLast c i arg4 harg4 arg5 harg5 arg6 harg6 arg7 harg7 arg8 harg8 arg9 harg9 arg10 harg10 xt0 xt1 xq xk xv sm sl sa h0 h1 h2 h3).1.2.2.1) = k1_pay7 (k1_pay17 xv) (k1_pay19 (wordAt c tbQ i xt0) (wordAt c tbK i xt1) xq xk sm sm) (k1_pay20 (wordAt c tbQ i xt0) (wordAt c tbK i xt1) xq xk sm) sa := by
  rw [View.read_writes_eq_canon _ _ _ fun y => coverLast_a (F := F) ..]
  unfold runLast
  dsimp only
  sl_unfold_words
  rw [View.canon_unit_zero (S := S512x1024) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
theorem back_last_o (f : arg7.view.ty.Contents (Elt F)) :
    arg7.view.read (Elt F) (arg7.view.writes (Elt F) f (runLast c i arg4 harg4 arg5 harg5 arg6 harg6 arg7 harg7 arg8 harg8 arg9 harg9 arg10 harg10 xt0 xt1 xq xk xv sm sl sa h0 h1 h2 h3).1.2.2.2) = k1_pay9 (k1_pay7 (k1_pay17 xv) (k1_pay19 (wordAt c tbQ i xt0) (wordAt c tbK i xt1) xq xk sm sm) (k1_pay20 (wordAt c tbQ i xt0) (wordAt c tbK i xt1) xq xk sm) sa) (k1_pay6 (k1_pay21 (wordAt c tbQ i xt0) (wordAt c tbK i xt1) xq xk sm sm sl)) := by
  rw [View.read_writes_eq_canon _ _ _ fun y => coverLast_o (F := F) ..]
  unfold runLast
  dsimp only
  sl_unfold_words
  rw [View.canon_unit_zero (S := S1x512x1024) hz3]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
  rfl
end

section
variable (h0 : isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem back_fplain_m (f : arg8.view.ty.Contents (Elt F)) :
    arg8.view.read (Elt F) (arg8.view.writes (Elt F) f (runFirstPlain c i arg4 harg4 arg5 harg5 arg6 harg6 arg7 harg7 arg8 harg8 arg9 harg9 arg10 harg10 xt0 xt1 xq xk xv h0 h1 h2 h3).1.1) = k1_pay5 (k1_pay11 xq xk k1_pay1) := by
  rw [View.read_writes_eq_canon _ _ _ fun y => coverFirstPlain_m (F := F) ..]
  unfold runFirstPlain
  dsimp only
  sl_unfold_words
  rw [View.canon_cons_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
theorem back_fplain_l (f : arg9.view.ty.Contents (Elt F)) :
    arg9.view.read (Elt F) (arg9.view.writes (Elt F) f (runFirstPlain c i arg4 harg4 arg5 harg5 arg6 harg6 arg7 harg7 arg8 harg8 arg9 harg9 arg10 harg10 xt0 xt1 xq xk xv h0 h1 h2 h3).1.2.1) = k1_pay14 xq xk k1_pay1 k1_pay1 k1_pay2 := by
  rw [View.read_writes_eq_canon _ _ _ fun y => coverFirstPlain_l (F := F) ..]
  unfold runFirstPlain
  dsimp only
  sl_unfold_words
  rw [View.canon_cons_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
theorem back_fplain_a (f : arg10.view.ty.Contents (Elt F)) :
    arg10.view.read (Elt F) (arg10.view.writes (Elt F) f (runFirstPlain c i arg4 harg4 arg5 harg5 arg6 harg6 arg7 harg7 arg8 harg8 arg9 harg9 arg10 harg10 xt0 xt1 xq xk xv h0 h1 h2 h3).1.2.2) = k1_pay4 (k1_pay15 xq xk xv k1_pay1 k1_pay1 k1_pay3) := by
  rw [View.read_writes_eq_canon _ _ _ fun y => coverFirstPlain_a (F := F) ..]
  unfold runFirstPlain
  dsimp only
  sl_unfold_words
  rw [View.canon_cons_unit_zero (S := S512x1024) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2,
    View.readCov_unit_zero (S := S512x1) _ hz2, View.readCov_unit_zero (S := S512x1024) _ hz2]
end

section
variable (sm : Vec F S512x1 .f32) (sl : Vec F S512x1 .f32) (sa : Vec F S512x1024 .f32)
  (h0 : ¬isFirst (wordAt c tbK i xt1)) (h1 : isPlain (wordAt c tbQ i xt0) (wordAt c tbK i xt1))
  (h2 : ¬isDiag (wordAt c tbQ i xt0) (wordAt c tbK i xt1)) (h3 : ¬isLast (wordAt c tbQ i xt0) (wordAt c tbK i xt1))
theorem back_plain_m (f : arg8.view.ty.Contents (Elt F)) :
    arg8.view.read (Elt F) (arg8.view.writes (Elt F) f (runPlain c i arg4 harg4 arg5 harg5 arg6 harg6 arg7 harg7 arg8 harg8 arg9 harg9 arg10 harg10 xt0 xt1 xq xk xv sm sl sa h0 h1 h2 h3).1.1) = k1_pay5 (k1_pay11 xq xk sm) := by
  rw [View.read_writes_eq_canon _ _ _ fun y => coverPlain_m (F := F) ..]
  unfold runPlain
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
theorem back_plain_l (f : arg9.view.ty.Contents (Elt F)) :
    arg9.view.read (Elt F) (arg9.view.writes (Elt F) f (runPlain c i arg4 harg4 arg5 harg5 arg6 harg6 arg7 harg7 arg8 harg8 arg9 harg9 arg10 harg10 xt0 xt1 xq xk xv sm sl sa h0 h1 h2 h3).1.2.1) = k1_pay14 xq xk sm sm sl := by
  rw [View.read_writes_eq_canon _ _ _ fun y => coverPlain_l (F := F) ..]
  unfold runPlain
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
theorem back_plain_a (f : arg10.view.ty.Contents (Elt F)) :
    arg10.view.read (Elt F) (arg10.view.writes (Elt F) f (runPlain c i arg4 harg4 arg5 harg5 arg6 harg6 arg7 harg7 arg8 harg8 arg9 harg9 arg10 harg10 xt0 xt1 xq xk xv sm sl sa h0 h1 h2 h3).1.2.2) = k1_pay4 (k1_pay15 xq xk xv sm sm sa) := by
  rw [View.read_writes_eq_canon _ _ _ fun y => coverPlain_a (F := F) ..]
  unfold runPlain
  dsimp only
  sl_unfold_words
  rw [View.canon_unit_zero (S := S512x1024) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
end

section
variable (sm : Vec F S512x1 .f32) (sl : Vec F S512x1 .f32) (sa : Vec F S512x1024 .f32)
  (h0 : ¬isFirst (wordAt c tbK i xt1)) (h1 : ¬isPlain (wordAt c tbQ i xt0) (wordAt c tbK i xt1))
  (h2 : isDiag (wordAt c tbQ i xt0) (wordAt c tbK i xt1)) (h3 : ¬isLast (wordAt c tbQ i xt0) (wordAt c tbK i xt1))
theorem back_diag_m (f : arg8.view.ty.Contents (Elt F)) :
    arg8.view.read (Elt F) (arg8.view.writes (Elt F) f (runDiag c i arg4 harg4 arg5 harg5 arg6 harg6 arg7 harg7 arg8 harg8 arg9 harg9 arg10 harg10 xt0 xt1 xq xk xv sm sl sa h0 h1 h2 h3).1.1) = k1_pay8 (k1_pay18 (wordAt c tbQ i xt0) (wordAt c tbK i xt1) xq xk sm) := by
  rw [View.read_writes_eq_canon _ _ _ fun y => coverDiag_m (F := F) ..]
  unfold runDiag
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
theorem back_diag_l (f : arg9.view.ty.Contents (Elt F)) :
    arg9.view.read (Elt F) (arg9.view.writes (Elt F) f (runDiag c i arg4 harg4 arg5 harg5 arg6 harg6 arg7 harg7 arg8 harg8 arg9 harg9 arg10 harg10 xt0 xt1 xq xk xv sm sl sa h0 h1 h2 h3).1.2.1) = k1_pay6 (k1_pay21 (wordAt c tbQ i xt0) (wordAt c tbK i xt1) xq xk sm sm sl) := by
  rw [View.read_writes_eq_canon _ _ _ fun y => coverDiag_l (F := F) ..]
  unfold runDiag
  dsimp only
  sl_unfold_words
  rw [View.canon_unit_zero (S := S512x1) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
theorem back_diag_a (f : arg10.view.ty.Contents (Elt F)) :
    arg10.view.read (Elt F) (arg10.view.writes (Elt F) f (runDiag c i arg4 harg4 arg5 harg5 arg6 harg6 arg7 harg7 arg8 harg8 arg9 harg9 arg10 harg10 xt0 xt1 xq xk xv sm sl sa h0 h1 h2 h3).1.2.2) = k1_pay7 (k1_pay17 xv) (k1_pay19 (wordAt c tbQ i xt0) (wordAt c tbK i xt1) xq xk sm sm) (k1_pay20 (wordAt c tbQ i xt0) (wordAt c tbK i xt1) xq xk sm) sa := by
  rw [View.read_writes_eq_canon _ _ _ fun y => coverDiag_a (F := F) ..]
  unfold runDiag
  dsimp only
  sl_unfold_words
  rw [View.canon_unit_zero (S := S512x1024) hz2]
  simp only [View.readAt_eq_ld, harg4.read_unread, harg5.read_unread, harg6.read_unread, harg8.read_unread, harg9.read_unread, harg10.read_unread,
    View.ld_unit_zero (S := S1x512x1024) hz3, View.ld_unit_zero (S := S1x256x1024) hz3, View.ld_unit_zero (S := S512x1) hz2, View.ld_unit_zero (S := S512x1024) hz2]
  rfl
end

end Cert.KernelIdeal.Hand

end
-- ==== Proof.AttnTile.lean ====
import Idealize.ShloMosaic.Lib.ValueIdx

/- One (query tile, key tile) pair of blockwise attention, row by row: the scaled scores of a query row against the
   tile's keys, the same with the keys after the query masked to ⊥, and one column of the tile's value rows. -/

namespace Cert.AttnTile

open Idealize.ShloMosaic Idealize.ShloMosaic.ValueIdx

noncomputable def tileRaw (X : (⟨3, ![1, 512, 1024]⟩ : Shape).Idx → EReal) (Kb : (⟨3, ![1, 256, 1024]⟩ : Shape).Idx → EReal)
    (r : Fin 512) : Fin 256 → EReal := fun j =>
  (∑ a : Fin 1024, X (ix3 0 r a) * Kb (ix3 0 j a)) * (((1 / 32 : ℝ) : ℝ) : EReal)

noncomputable def tileMasked (qt kt : ℕ) (X : (⟨3, ![1, 512, 1024]⟩ : Shape).Idx → EReal) (Kb : (⟨3, ![1, 256, 1024]⟩ : Shape).Idx → EReal)
    (r : Fin 512) : Fin 256 → EReal := fun j =>
  if kt * 256 + j.val ≤ qt * 512 + r.val then tileRaw X Kb r j else ⊥

def tileCol (Vb : (⟨3, ![1, 256, 1024]⟩ : Shape).Idx → EReal) (a : Fin 1024) : Fin 256 → EReal := fun j => Vb (ix3 0 j a)

end Cert.AttnTile
-- ==== Proof.KiPayPlain.lean ====
import proofs.«401152_j23330262351892_3_alg».proof.Proof.Gen.KernelIdeal.Skeleton
import proofs.«401152_j23330262351892_3_alg».proof.Proof.AttnTile
import proofs.«401152_j23330262351892_3_alg».proof.Proof.LibDots
import Idealize.ShloMosaic.Lib.ValueLayout

/- Arrays of the attention body read at one index: a vector as a column, a column repeated along the rows, a row's
   maximum and sum over its 256 entries, the scaled scores of a tile, and the starting values m = ⊥, l = 0, acc = 0. -/

namespace Cert.KernelIdeal.PayAt

open Cert.KernelIdeal.Gen Idealize.ShloMosaic Idealize.ShloMosaic.ValueIdx Cert.AttnTile

theorem ofBits_negInf : Ideal.ofBits .f32 0xFF800000#32 = ⊥ := by simp [Ideal.ofBits, Ideal.ieee]

theorem ofBits_scale : Ideal.ofBits .f32 0x3D000000#32 = (((1 / 32 : ℝ) : ℝ) : EReal) := by
  simp [Ideal.ofBits, Ideal.ieee, -EReal.coe_mul]; norm_num

section Layout
variable {α : Type} {a b : ℕ}

/-- Entry (i, 0) of the a×1 column is entry i of the vector: both sit at row-major position i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    rw [Shape.rowMajor_val_two, Shape.rowMajor_val_one]
    show i.val = i.val * 1 + u.val
    omega)

/-- A column repeated b times along each row reads, at (p, c), the column at p. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split <;> omega
  | ⟨1, _⟩ => rfl

end Layout

/-- Column k put back into the reduced index r is (r, k). -/
theorem lift_row (r : Fin 512) : reduces_S512x256_S512.lift (ValueIdx.ix1 r) = ix2 r :=
  funext fun _ => funext fun ax => match ax with
  | ⟨0, _⟩ => rfl
  | ⟨1, _⟩ => rfl

theorem rowMax_at (src : FVec Ideal S512x256 .f32) (r : Fin 512) :
    shapeCast S512x1 (multiReduction (F := Ideal) .maximumf [1] S512 src 0xFF800000#32
        reduces_S512x256_S512 (.inl rfl) rfl) shapeCasts_S512_S512x1 (ix2 r 0)
      = (Finset.univ : Finset (Fin 256)).fold max ⊥ (fun j => src (ix2 r j)) := by
  refine (shapeCast_a_a1_apply _ _ r 0).trans
    ((Ideal.multiReduction_maximumf_single src _ reduces_S512x256_S512 _ _ (ValueIdx.ix1 r)).trans ?_)
  rw [lift_row]
  exact congrArg (Finset.univ.fold max · _) ofBits_negInf

theorem rowSum_at (src : FVec Ideal S512x256 .f32) (r : Fin 512) :
    shapeCast S512x1 (multiReduction (F := Ideal) .add [1] S512 src 0x00000000#32
        reduces_S512x256_S512 (.inl rfl) rfl) shapeCasts_S512_S512x1 (ix2 r 0)
      = ∑ j : Fin 256, src (ix2 r j) := by
  refine (shapeCast_a_a1_apply _ _ r 0).trans
    ((Ideal.multiReduction_add_single src _ reduces_S512x256_S512 _ _ (ValueIdx.ix1 r)).trans ?_)
  rw [lift_row]
  rfl

/-- The scaled scores: row r of the query block against row j of the key block, times 1/32. -/
theorem pay10_at (X : Vec Ideal S1x512x1024 .bf16) (Kb : Vec Ideal S1x256x1024 .bf16) (r : Fin 512) (j : Fin 256) :
    k1_pay10 (F := Ideal) X Kb (ix2 r j) = tileRaw X Kb r j := by
  show matmul (F := Ideal) (φ₁ := .bf16) (φ₂ := .bf16) (DotDims.transposedRhs 512 1024 256) none
      (shapeCast S512x1024 X shapeCasts_S1x512x1024_S512x1024) (shapeCast S256x1024 Kb shapeCasts_S1x256x1024_S256x1024)
      (constant S512x256 .f32 0x00000000#32) (ix2 r j) * Ideal.ofBits .f32 0x3D000000#32 = _
  rw [Cert.Lib.Dots.matmul_zero_rowsT_apply, ofBits_scale]
  simp only [shapeCast_1ab_ab_apply]
  rfl

theorem pay1_at (r : Fin 512) : k1_pay1 (F := Ideal) (ix2 r 0) = ⊥ := by
  unfold k1_pay1; rw [shapeCast_self]; exact ofBits_negInf

theorem pay2_at (r : Fin 512) : k1_pay2 (F := Ideal) (ix2 r 0) = 0 := by
  unfold k1_pay2; rw [shapeCast_self]; exact Ideal.ofBits_zero_f32

theorem pay3_at (r : Fin 512) (a : Fin 1024) : k1_pay3 (F := Ideal) (ix2 r a) = 0 := by
  unfold k1_pay3; rw [shapeCast_self]; exact Ideal.ofBits_zero_f32

end Cert.KernelIdeal.PayAt
-- ==== Proof.KiPayMasked.lean ====
import proofs.«401152_j23330262351892_3_alg».proof.Proof.KiPayPlain

/- The masked scores of a tile that meets the diagonal: key w3·256 + j is kept for query w1·512 + r exactly when it does
   not come after it. With w1 < 4 and w3 < 8 both positions are below 2³¹, so the signed words compare as naturals. -/

namespace Cert.KernelIdeal.PayMasked

open Cert.KernelIdeal.Gen Idealize.ShloMosaic Idealize.ShloMosaic.ValueIdx Cert.AttnTile Cert.KernelIdeal.PayAt

theorem neg_big_const : Named.named (F := Ideal) Cert.KernelIdeal.κ "neg_big" (φ := .f32) 0xFF333332#32 = ⊥ :=
  IdealRules.named_const.ideal_named_scalar _ _ _ _ rfl

/-- Entry i of tile w, T entries a tile, has position w·T + i: below 2³¹ the 32-bit sum neither wraps nor turns negative. -/
theorem pos_word (w : BitVec 32) (T i : ℕ) (hT : T < 2 ^ 32) (h : w.toNat * T + i < 2 ^ 31) :
    (IntOp.addi (BitVec.ofNat 32 i) (IntOp.muli w (BitVec.ofNat 32 T))).toInt = ((w.toNat * T + i : ℕ) : ℤ) := by
  have hn : (IntOp.addi (BitVec.ofNat 32 i) (IntOp.muli w (BitVec.ofNat 32 T))).toNat = w.toNat * T + i := by
    show (BitVec.ofNat 32 i + w * BitVec.ofNat 32 T).toNat = _
    simp only [BitVec.toNat_add, BitVec.toNat_mul, BitVec.toNat_ofNat]
    rw [Nat.mod_eq_of_lt hT]
    omega
  rw [BitVec.toInt_eq_toNat_of_lt (by rw [hn]; omega), hn]

/-- The signed comparison "query position ≥ key position" is the comparison of the two natural numbers. -/
theorem mask_word (w1 w3 : BitVec 32) (h1 : w1.toNat < 4) (h3 : w3.toNat < 8) (r : Fin 512) (j : Fin 256) :
    IntOp.cmpi .sge (IntOp.addi (BitVec.ofNat 32 r.val) (IntOp.muli w1 512#32))
        (IntOp.addi (BitVec.ofNat 32 j.val) (IntOp.muli w3 256#32))
      = if w3.toNat * 256 + j.val ≤ w1.toNat * 512 + r.val then 1#1 else 0#1 := by
  have e := IntOp.cmpi_sge (x := IntOp.addi (BitVec.ofNat 32 r.val) (IntOp.muli w1 512#32))
    (y := IntOp.addi (BitVec.ofNat 32 j.val) (IntOp.muli w3 256#32))
  rw [pos_word w1 512 r (by decide) (by omega), pos_word w3 256 j (by decide) (by omega), Nat.cast_le] at e
  split
  · exact e.mpr ‹_›
  · exact eq_zero_of_ne_one fun hc => ‹¬_› (e.mp hc)

/-- The masked scores: the scaled score where the key does not come after the query, ⊥ elsewhere. -/
theorem pay16_at (w1 w3 : BitVec 32) (h1 : w1.toNat < 4) (h3 : w3.toNat < 8)
    (X : Vec Ideal S1x512x1024 .bf16) (Kb : Vec Ideal S1x256x1024 .bf16) (r : Fin 512) (j : Fin 256) :
    k1_pay16 (F := Ideal) w1 w3 X Kb (ix2 r j) = tileMasked w1.toNat w3.toNat X Kb r j := by
  have h0 : iota .tc S512x256 32 [0] iota_S512x256_d0_w32 (ix2 r j) = BitVec.ofNat 32 r.val :=
    iota_single_apply .tc S512x256 32 0 _ _
  have h1' : iota .tc S512x256 32 [1] iota_S512x256_d1_w32 (ix2 r j) = BitVec.ofNat 32 j.val :=
    iota_single_apply .tc S512x256 32 1 _ _
  show Scalar.select (IntOp.cmpi .sge (IntOp.addi (iota .tc S512x256 32 [0] iota_S512x256_d0_w32 (ix2 r j)) (IntOp.muli w1 512#32))
        (IntOp.addi (iota .tc S512x256 32 [1] iota_S512x256_d1_w32 (ix2 r j)) (IntOp.muli w3 256#32)))
      (k1_pay10 (F := Ideal) X Kb (ix2 r j)) (Named.named (F := Ideal) Cert.KernelIdeal.κ "neg_big" (φ := .f32) 0xFF333332#32) = _
  rw [h0, h1', mask_word w1 w3 h1 h3 r j, pay10_at, neg_big_const]
  unfold tileMasked
  split
  · exact select_one _ _
  · exact select_zero _ _

end Cert.KernelIdeal.PayMasked
-- ==== Proof.LibOnlineSoftmax.lean ====
/- The blockwise online-softmax recurrence computes softmax-weighted sums: the running maximum m, normaliser l and weighted sum a are kept relative to
   m, and a block that raises the maximum from μ to μ' rescales the totals by exp (μ - μ'), because exp (μ - μ') · exp (x - μ) = exp (x - μ'). -/
import Idealize.ShloMosaic.PureOps.Ideal
import Mathlib.Data.EReal.Operations
import Mathlib.Data.Finset.Fold
import Mathlib.Data.Fintype.BigOperators
import Mathlib.Algebra.BigOperators.Group.Finset.Basic
import Mathlib.Algebra.Order.BigOperators.Group.Finset

namespace OnlineSoftmax
open Idealize.ShloMosaic
open scoped BigOperators

variable {B : ℕ}

noncomputable def stepM (m : EReal) (s : Fin B → EReal) : EReal :=
  max m ((Finset.univ : Finset (Fin B)).fold max ⊥ s)

noncomputable def stepL (m l : EReal) (s : Fin B → EReal) : EReal :=
  Ideal.exp (m - stepM m s) * l + ∑ j, Ideal.exp (s j - stepM m s)

noncomputable def stepA (m a : EReal) (s v : Fin B → EReal) : EReal :=
  Ideal.exp (m - stepM m s) * a + ∑ j, Ideal.exp (s j - stepM m s) * v j

/-- The state (m, l, a) after the first n blocks. -/
noncomputable def run (s v : ℕ → Fin B → EReal) : ℕ → EReal × EReal × EReal
  | 0 => (⊥, 0, 0)
  | n + 1 => (stepM (run s v n).1 (s n), stepL (run s v n).1 (run s v n).2.1 (s n),
      stepA (run s v n).1 (run s v n).2.2 (s n) (v n))

def RealOrBot (x : EReal) : Prop := x = ⊥ ∨ ∃ r : ℝ, x = (r : EReal)

theorem run_succ (s v : ℕ → Fin B → EReal) (n : ℕ) :
    run s v (n + 1) = (stepM (run s v n).1 (s n), stepL (run s v n).1 (run s v n).2.1 (s n),
      stepA (run s v n).1 (run s v n).2.2 (s n) (v n)) := rfl

/-- exp (x - μ) as a real number, the masked score weighing 0. -/
noncomputable def wt (x : EReal) (μ : ℝ) : ℝ := if x = ⊥ then 0 else Real.exp (x.toReal - μ)

theorem wt_bot (μ : ℝ) : wt ⊥ μ = 0 := if_pos rfl

theorem wt_coe (r μ : ℝ) : wt (r : EReal) μ = Real.exp (r - μ) := by
  rw [wt, if_neg (EReal.coe_ne_bot r), EReal.toReal_coe]

theorem wt_nonneg (x : EReal) (μ : ℝ) : 0 ≤ wt x μ := by
  unfold wt
  split_ifs
  · exact le_rfl
  · exact (Real.exp_pos _).le

/-- Raising the level from μ to μ' rescales every weight by exp (μ - μ'). -/
theorem wt_rescale (x : EReal) (μ μ' : ℝ) : Real.exp (μ - μ') * wt x μ = wt x μ' := by
  unfold wt
  split_ifs
  · exact mul_zero _
  · rw [← Real.exp_add]
    congr 1
    ring

theorem exp_sub_coe {x : EReal} (hx : RealOrBot x) (μ : ℝ) :
    Ideal.exp (x - (μ : EReal)) = ((wt x μ : ℝ) : EReal) := by
  rcases hx with rfl | ⟨r, rfl⟩
  · rw [EReal.bot_sub, Ideal.exp_bot, wt_bot, EReal.coe_zero]
  · rw [← EReal.coe_sub, Ideal.exp_coe, wt_coe]

theorem coe_sum {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem realOrBot_max {x y : EReal} (hx : RealOrBot x) (hy : RealOrBot y) :
    RealOrBot (max x y) := by
  rcases max_choice x y with h | h <;> rw [h] <;> assumption

theorem realOrBot_fold {ι : Type*} (t : Finset ι) (f : ι → EReal)
    (hf : ∀ i ∈ t, RealOrBot (f i)) : RealOrBot (t.fold max ⊥ f) := by
  classical
  induction t using Finset.induction_on with
  | empty => exact Or.inl rfl
  | insert a t ha ih =>
    rw [Finset.fold_insert ha]
    exact realOrBot_max (hf a (Finset.mem_insert_self _ _))
      (ih fun i hi => hf i (Finset.mem_insert_of_mem hi))

theorem real_of_le {x : EReal} (hx : RealOrBot x) {r : ℝ} (h : (r : EReal) ≤ x) :
    ∃ μ : ℝ, x = (μ : EReal) := by
  rcases hx with rfl | h'
  · exact absurd (le_bot_iff.mp h) (EReal.coe_ne_bot r)
  · exact h'

/-- The running maximum is the maximum over all visited scores. -/
theorem run_max (s v : ℕ → Fin B → EReal) (n : ℕ) :
    (run s v n).1
      = (Finset.range n).fold max ⊥ (fun k => (Finset.univ : Finset (Fin B)).fold max ⊥ (s k)) := by
  induction n with
  | zero => rfl
  | succ n ih =>
    rw [run_succ, Finset.range_add_one, Finset.fold_insert Finset.notMem_range_self, ← ih]
    exact max_comm _ _

/-- One block from a real-or-masked maximum and real totals, when the new maximum is real. -/
theorem step_state {m : EReal} (hm : RealOrBot m) (L A : ℝ) {s v : Fin B → EReal}
    (hs : ∀ j, RealOrBot (s j)) (hv : ∀ j, ∃ r : ℝ, v j = (r : EReal)) {r : ℝ}
    (hr : (r : EReal) ≤ stepM m s) :
    ∃ μ' : ℝ, stepM m s = (μ' : EReal)
      ∧ stepL m (L : EReal) s = ((wt m μ' * L + ∑ j, wt (s j) μ' : ℝ) : EReal)
      ∧ stepA m (A : EReal) s v
          = ((wt m μ' * A + ∑ j, wt (s j) μ' * (v j).toReal : ℝ) : EReal) := by
  have hM : RealOrBot (stepM m s) :=
    realOrBot_max hm (realOrBot_fold _ _ fun j _ => hs j)
  obtain ⟨μ', hμ⟩ := real_of_le hM hr
  refine ⟨μ', hμ, ?_, ?_⟩
  · have h1 : ∑ j, Ideal.exp (s j - (μ' : EReal)) = ∑ j, ((wt (s j) μ' : ℝ) : EReal) :=
      Finset.sum_congr rfl fun j _ => exp_sub_coe (hs j) μ'
    rw [stepL, hμ, exp_sub_coe hm, h1, coe_sum, ← EReal.coe_mul, ← EReal.coe_add]
  · have h1 : ∑ j, Ideal.exp (s j - (μ' : EReal)) * v j
        = ∑ j, ((wt (s j) μ' * (v j).toReal : ℝ) : EReal) :=
      Finset.sum_congr rfl fun j _ => by
        obtain ⟨q, hq⟩ := hv j
        rw [exp_sub_coe (hs j) μ', hq, EReal.toReal_coe, ← EReal.coe_mul]
    rw [stepA, hμ, exp_sub_coe hm, h1, coe_sum, ← EReal.coe_mul, ← EReal.coe_add]

noncomputable def Lr (s : ℕ → Fin B → EReal) (n : ℕ) (μ : ℝ) : ℝ :=
  ∑ k ∈ Finset.range n, ∑ j, wt (s k j) μ

noncomputable def Ar (s v : ℕ → Fin B → EReal) (n : ℕ) (μ : ℝ) : ℝ :=
  ∑ k ∈ Finset.range n, ∑ j, wt (s k j) μ * (v k j).toReal

theorem Lr_rescale (s : ℕ → Fin B → EReal) (n : ℕ) (μ μ' : ℝ) :
    Real.exp (μ - μ') * Lr s n μ = Lr s n μ' := by
  simp only [Lr, Finset.mul_sum, wt_rescale]

theorem Ar_rescale (s v : ℕ → Fin B → EReal) (n : ℕ) (μ μ' : ℝ) :
    Real.exp (μ - μ') * Ar s v n μ = Ar s v n μ' := by
  simp only [Ar, Finset.mul_sum, ← mul_assoc, wt_rescale]

theorem Lr_pos (s : ℕ → Fin B → EReal) {n : ℕ} (hn : 0 < n) (μ : ℝ) {j0 : Fin B} {r : ℝ}
    (h0 : s 0 j0 = (r : EReal)) : 0 < Lr s n μ := by
  unfold Lr
  refine Finset.sum_pos' (fun k _ => Finset.sum_nonneg fun j _ => wt_nonneg _ _)
    ⟨0, Finset.mem_range.mpr hn, ?_⟩
  refine Finset.sum_pos' (fun j _ => wt_nonneg _ _) ⟨j0, Finset.mem_univ _, ?_⟩
  rw [h0, wt_coe]
  exact Real.exp_pos _

/-- One more block, when the totals so far, rescaled to any level, are the sums over the visited scores. -/
theorem run_step (s v : ℕ → Fin B → EReal) (n : ℕ) {m : EReal} (hm : RealOrBot m) (L A : ℝ)
    (hrun : run s v n = (m, (L : EReal), (A : EReal)))
    (hw : ∀ μ, wt m μ * L = Lr s n μ ∧ wt m μ * A = Ar s v n μ)
    (hs : ∀ j, RealOrBot (s n j)) (hv : ∀ j, ∃ r : ℝ, v n j = (r : EReal)) {r : ℝ}
    (hr : (r : EReal) ≤ stepM m (s n)) :
    ∃ μ : ℝ, run s v (n + 1)
      = ((μ : EReal), ((Lr s (n + 1) μ : ℝ) : EReal), ((Ar s v (n + 1) μ : ℝ) : EReal)) := by
  obtain ⟨μ, hM, hL, hA⟩ := step_state hm L A hs hv hr
  refine ⟨μ, ?_⟩
  rw [(hw μ).1] at hL
  rw [(hw μ).2] at hA
  rw [run_succ, hrun]
  show (stepM m (s n), stepL m (L : EReal) (s n), stepA m (A : EReal) (s n) (v n)) = _
  rw [hM, hL, hA]
  unfold Lr Ar
  rw [Finset.sum_range_succ, Finset.sum_range_succ]

/-- After n + 1 blocks the state is (μ, ∑ exp (x - μ), ∑ exp (x - μ) · v) over the visited scores, for a real μ. -/
theorem run_inv (s v : ℕ → Fin B → EReal) (h0 : ∃ j, ∃ r : ℝ, s 0 j = (r : EReal)) (n : ℕ) :
    (∀ k < n + 1, ∀ j, RealOrBot (s k j)) → (∀ k < n + 1, ∀ j, ∃ r : ℝ, v k j = (r : EReal)) →
      ∃ μ : ℝ, run s v (n + 1)
        = ((μ : EReal), ((Lr s (n + 1) μ : ℝ) : EReal), ((Ar s v (n + 1) μ : ℝ) : EReal)) := by
  induction n with
  | zero =>
    intro hs hv
    obtain ⟨j0, r, hr0⟩ := h0
    exact run_step s v 0 (Or.inl rfl) 0 0 rfl
      (fun μ => ⟨(mul_zero _).trans (Finset.sum_range_zero _).symm, (mul_zero _).trans (Finset.sum_range_zero _).symm⟩)
      (hs 0 (by omega)) (hv 0 (by omega))
      (le_max_of_le_right ((Finset.le_fold_max _).mpr (Or.inr ⟨j0, Finset.mem_univ _, hr0.ge⟩)))
  | succ n ih =>
    intro hs hv
    obtain ⟨μ, hμ⟩ := ih (fun k hk => hs k (by omega)) (fun k hk => hv k (by omega))
    exact run_step s v (n + 1) (Or.inr ⟨μ, rfl⟩) _ _ hμ
      (fun μ' => ⟨by rw [wt_coe, Lr_rescale], by rw [wt_coe, Ar_rescale]⟩)
      (hs (n + 1) (by omega)) (hv (n + 1) (by omega)) (le_max_left _ _)

theorem sum_visited {κ : Type} [Fintype κ] {n : ℕ} (e : Fin n × Fin B → κ)
    (he : Function.Injective e) (g : κ → ℝ) (f : ℕ → Fin B → ℝ)
    (hg : ∀ x, x ∉ Set.range e → g x = 0) (hf : ∀ p, g (e p) = f p.1.val p.2) :
    ∑ x, g x = ∑ k ∈ Finset.range n, ∑ j, f k j :=
  calc ∑ x, g x = ∑ p : Fin n × Fin B, f p.1.val p.2 :=
        (Fintype.sum_of_injective e he _ g hg (fun p => (hf p).symm)).symm
    _ = ∑ k : Fin n, ∑ j, f k.val j := Fintype.sum_prod_type _
    _ = ∑ k ∈ Finset.range n, ∑ j, f k j := Fin.sum_univ_eq_sum_range (fun k => ∑ j, f k j) n

/-- The maximum over all keys is the maximum over the visited scores: the others are masked. -/
theorem fold_all_eq_visited {κ : Type} [Fintype κ] {n : ℕ} (s : ℕ → Fin B → EReal)
    (S : κ → EReal) (e : Fin n × Fin B → κ) (hS : ∀ p, S (e p) = s p.1.val p.2)
    (hout : ∀ x, x ∉ Set.range e → S x = ⊥) :
    (Finset.univ : Finset κ).fold max ⊥ S
      = (Finset.range n).fold max ⊥ (fun k => (Finset.univ : Finset (Fin B)).fold max ⊥ (s k)) := by
  refine eq_of_forall_ge_iff fun c => ?_
  rw [Finset.fold_max_le, Finset.fold_max_le]
  constructor
  · rintro ⟨hb, h⟩
    refine ⟨hb, fun k hk => ?_⟩
    rw [Finset.fold_max_le]
    refine ⟨hb, fun j _ => ?_⟩
    have := h (e (⟨k, Finset.mem_range.mp hk⟩, j)) (Finset.mem_univ _)
    rwa [hS] at this
  · rintro ⟨hb, h⟩
    refine ⟨hb, fun x _ => ?_⟩
    by_cases hx : x ∈ Set.range e
    · obtain ⟨p, rfl⟩ := hx
      rw [hS]
      have := h p.1.val (Finset.mem_range.mpr p.1.isLt)
      rw [Finset.fold_max_le] at this
      exact this.2 p.2 (Finset.mem_univ _)
    · rw [hout x hx]
      exact hb

/-- After all visited blocks a / l is the softmax-weighted sum over every key, the unvisited keys being masked. -/
theorem run_eq_softmax {κ : Type} [Fintype κ] (s v : ℕ → Fin B → EReal) (n : ℕ) (hn : 0 < n)
    (S V : κ → EReal) (e : Fin n × Fin B → κ) (he : Function.Injective e)
    (hS : ∀ p, S (e p) = s p.1.val p.2) (hV : ∀ p, V (e p) = v p.1.val p.2)
    (hout : ∀ x, x ∉ Set.range e → S x = ⊥)
    (hs : ∀ k < n, ∀ j, RealOrBot (s k j)) (h0 : ∃ j, ∃ r : ℝ, s 0 j = (r : EReal))
    (hv : ∀ x, ∃ r : ℝ, V x = (r : EReal)) :
    Ideal.div (run s v n).2.2 (run s v n).2.1
      = ∑ x : κ, Ideal.div (Ideal.exp (S x - (Finset.univ : Finset κ).fold max ⊥ S))
          (∑ y : κ, Ideal.exp (S y - (Finset.univ : Finset κ).fold max ⊥ S)) * V x := by
  obtain ⟨n', rfl⟩ := Nat.exists_eq_succ_of_ne_zero hn.ne'
  have hvv : ∀ k < n' + 1, ∀ j, ∃ r : ℝ, v k j = (r : EReal) := fun k hk j => by
    obtain ⟨r, hr⟩ := hv (e (⟨k, hk⟩, j))
    exact ⟨r, by rw [← hr, hV]⟩
  obtain ⟨μ, hμ⟩ := run_inv s v h0 n' hs hvv
  have hM : (Finset.univ : Finset κ).fold max ⊥ S = (μ : EReal) := by
    rw [fold_all_eq_visited s S e hS hout, ← run_max s v, hμ]
  have hSr : ∀ x, RealOrBot (S x) := fun x => by
    by_cases hx : x ∈ Set.range e
    · obtain ⟨p, rfl⟩ := hx
      rw [hS]
      exact hs _ p.1.isLt _
    · exact Or.inl (hout x hx)
  obtain ⟨j0, r0, hr0⟩ := h0
  have hLpos : 0 < Lr s (n' + 1) μ := Lr_pos s (Nat.succ_pos _) μ hr0
  have hLne : Lr s (n' + 1) μ ≠ 0 := hLpos.ne'
  have hL : ∑ y, wt (S y) μ = Lr s (n' + 1) μ :=
    sum_visited e he (fun y => wt (S y) μ) (fun k j => wt (s k j) μ)
      (fun x hx => by show wt (S x) μ = 0; rw [hout x hx, wt_bot])
      (fun p => by show wt (S (e p)) μ = _; rw [hS])
  have hA : ∑ x, wt (S x) μ * (V x).toReal = Ar s v (n' + 1) μ :=
    sum_visited e he (fun x => wt (S x) μ * (V x).toReal)
      (fun k j => wt (s k j) μ * (v k j).toReal)
      (fun x hx => by show wt (S x) μ * _ = 0; rw [hout x hx, wt_bot, zero_mul])
      (fun p => by show wt (S (e p)) μ * (V (e p)).toReal = _; rw [hS, hV])
  have hden : ∑ y, Ideal.exp (S y - (μ : EReal)) = ((Lr s (n' + 1) μ : ℝ) : EReal) := by
    rw [← hL, ← coe_sum]
    exact Finset.sum_congr rfl fun y _ => exp_sub_coe (hSr y) μ
  have hterm : ∀ x, Ideal.div (Ideal.exp (S x - (μ : EReal))) ((Lr s (n' + 1) μ : ℝ) : EReal) * V x
      = ((wt (S x) μ * (V x).toReal * (1 / Lr s (n' + 1) μ) : ℝ) : EReal) := fun x => by
    obtain ⟨q, hq⟩ := hv x
    rw [Ideal.div_coe hLne, exp_sub_coe (hSr x) μ, hq, EReal.toReal_coe, ← EReal.coe_mul,
      ← EReal.coe_mul]
    congr 1
    ring
  rw [hM, hden, Finset.sum_congr rfl fun x _ => hterm x, coe_sum, ← Finset.sum_mul, hA, hμ]
  show Ideal.div ((Ar s v (n' + 1) μ : ℝ) : EReal) ((Lr s (n' + 1) μ : ℝ) : EReal) = _
  rw [Ideal.div_coe hLne, ← EReal.coe_mul]

end OnlineSoftmax
-- ==== Proof.KiStepValue.lean ====
import proofs.«401152_j23330262351892_3_alg».proof.Proof.KiPayMasked
import proofs.«401152_j23330262351892_3_alg».proof.Proof.LibOnlineSoftmax

/- One block of the online-softmax recurrence as the attention body performs it on one row: whatever score array S the
   tile has, if row r of S reads s then the stored maximum, normaliser and accumulator entry are stepM, stepL, stepA on s. -/

namespace Cert.KernelIdeal.StepValue

open Cert.KernelIdeal.Gen Idealize.ShloMosaic Idealize.ShloMosaic.ValueIdx Cert.AttnTile
open Cert.KernelIdeal.PayAt Cert.KernelIdeal.PayMasked

noncomputable section

/-- The new running maximum: the old one against each row's largest score. -/
def newM (S : FVec Ideal S512x256 .f32) (m : Vec Ideal S512x1 .f32) : FVec Ideal S512x1 .f32 :=
  maximumf m (shapeCast S512x1 (multiReduction .maximumf [1] S512 S 0xFF800000#32 reduces_S512x256_S512 (.inl rfl) rfl)
    shapeCasts_S512_S512x1)

/-- The factor exp (old maximum − new maximum) that rescales the old totals. -/
def scl (S : FVec Ideal S512x256 .f32) (m : Vec Ideal S512x1 .f32) : FVec Ideal S512x1 .f32 := exp (subf m (newM S m))

/-- The weights exp (score − new maximum). -/
def wts (S : FVec Ideal S512x256 .f32) (m : Vec Ideal S512x1 .f32) : FVec Ideal S512x256 .f32 :=
  exp (subf S (broadcastTo S512x256 (newM S m) broadcasts_S512x1_S512x256))

section Step
variable {S : FVec Ideal S512x256 .f32} {s : Fin 256 → EReal} {r : Fin 512} (hS : ∀ j, S (ix2 r j) = s j)
  (m l : Vec Ideal S512x1 .f32) (acc : Vec Ideal S512x1024 .f32) (Vb : Vec Ideal S1x256x1024 .bf16) (a : Fin 1024)
include hS

theorem newM_at : newM S m (ix2 r 0) = OnlineSoftmax.stepM (m (ix2 r 0)) s := by
  refine (maximumf_apply _ _ _).trans ?_
  rw [rowMax_at, funext hS]
  rfl

theorem scl_at : scl S m (ix2 r 0) = Ideal.exp (m (ix2 r 0) - OnlineSoftmax.stepM (m (ix2 r 0)) s) :=
  congrArg (fun x => Ideal.exp (m (ix2 r 0) - x)) (newM_at hS m)

theorem wts_at (j : Fin 256) : wts S m (ix2 r j) = Ideal.exp (s j - OnlineSoftmax.stepM (m (ix2 r 0)) s) := by
  show Ideal.exp (S (ix2 r j) - broadcastTo S512x256 (newM S m) broadcasts_S512x1_S512x256 (ix2 r j)) = _
  rw [broadcastTo_a1_ab_apply, newM_at hS, hS]

theorem stepM_at : shapeCast S512x1 (newM S m) shapeCasts_S512x1_S512x1 (ix2 r 0) = OnlineSoftmax.stepM (m (ix2 r 0)) s :=
  (congrFun (shapeCast_self _ _) _).trans (newM_at hS m)

theorem stepL_at : shapeCast S512x1 (addf (mulf (scl S m) l) (shapeCast S512x1 (multiReduction .add [1] S512 (wts S m)
      0x00000000#32 reduces_S512x256_S512 (.inl rfl) rfl) shapeCasts_S512_S512x1)) shapeCasts_S512x1_S512x1 (ix2 r 0)
    = OnlineSoftmax.stepL (m (ix2 r 0)) (l (ix2 r 0)) s := by
  rw [shapeCast_self]
  refine (addf_apply _ _ _).trans (congrArg₂ (· + ·) ((mulf_apply _ _ _).trans ?_) ((rowSum_at _ r).trans ?_))
  · rw [scl_at hS]
  · exact Finset.sum_congr rfl fun j _ => wts_at hS m j

theorem stepA_at : shapeCast S512x1024 (addf (mulf (broadcastTo S512x1024 (scl S m) broadcasts_S512x1_S512x1024) acc)
      (matmul (φ₂ := .bf16) dot_S512x256_S256x1024_S512x1024_1_0_0_1_n_n none (truncf .bf16 (wts S m) bitsLt_bf16_f32)
        (shapeCast S256x1024 Vb shapeCasts_S1x256x1024_S256x1024) (constant S512x1024 .f32 0x00000000#32)))
      shapeCasts_S512x1024_S512x1024 (ix2 r a)
    = OnlineSoftmax.stepA (m (ix2 r 0)) (acc (ix2 r a)) s (tileCol Vb a) := by
  rw [shapeCast_self]
  refine (addf_apply _ _ _).trans (congrArg₂ (· + ·) ((mulf_apply _ _ _).trans ?_)
    ((Cert.Lib.Dots.matmul_zero_rowsCols_apply dot_S512x256_S256x1024_S512x1024_1_0_0_1_n_n_wf none _ _ r a).trans
      (Finset.sum_congr rfl fun k _ => ?_)))
  · rw [broadcastTo_a1_ab_apply, scl_at hS]
  · rw [truncf_apply, wts_at hS, shapeCast_1ab_ab_apply]
    rfl

end Step

variable (w1 w3 : BitVec 32) (h1 : w1.toNat < 4) (h3 : w3.toNat < 8) (X : Vec Ideal S1x512x1024 .bf16)
  (Kb Vb : Vec Ideal S1x256x1024 .bf16) (m : Vec Ideal S512x1 .f32) (acc : Vec Ideal S512x1024 .f32)
  (l : Vec Ideal S512x1 .f32) (r : Fin 512) (a : Fin 1024)

theorem plain_m : k1_pay5 (F := Ideal) (k1_pay11 X Kb m) (ix2 r 0) = OnlineSoftmax.stepM (m (ix2 r 0)) (tileRaw X Kb r) :=
  stepM_at (pay10_at X Kb r) m

theorem plain_l :
    k1_pay14 (F := Ideal) X Kb m m l (ix2 r 0)
      = OnlineSoftmax.stepL (m (ix2 r 0)) (l (ix2 r 0)) (tileRaw X Kb r) :=
  stepL_at (pay10_at X Kb r) m l

theorem plain_acc :
    k1_pay4 (F := Ideal) (k1_pay15 X Kb Vb m m acc) (ix2 r a)
      = OnlineSoftmax.stepA (m (ix2 r 0)) (acc (ix2 r a)) (tileRaw X Kb r) (tileCol Vb a) :=
  stepA_at (pay10_at X Kb r) m acc Vb a

/-- Right after a reset the running state is (⊥, 0, 0). -/
theorem first_plain_m :
    k1_pay5 (F := Ideal) (k1_pay11 X Kb (k1_pay1 (F := Ideal))) (ix2 r 0) = OnlineSoftmax.stepM ⊥ (tileRaw X Kb r) := by
  rw [plain_m, pay1_at]

theorem first_plain_l :
    k1_pay14 (F := Ideal) X Kb (k1_pay1 (F := Ideal)) (k1_pay1 (F := Ideal)) (k1_pay2 (F := Ideal)) (ix2 r 0) = OnlineSoftmax.stepL ⊥ 0 (tileRaw X Kb r) := by
  rw [plain_l, pay1_at, pay2_at]

theorem first_plain_acc :
    k1_pay4 (F := Ideal) (k1_pay15 X Kb Vb (k1_pay1 (F := Ideal)) (k1_pay1 (F := Ideal)) (k1_pay3 (F := Ideal))) (ix2 r a)
      = OnlineSoftmax.stepA ⊥ 0 (tileRaw X Kb r) (tileCol Vb a) := by
  rw [plain_acc, pay1_at, pay3_at]

/-- The finished row: the accumulator over the normaliser. -/
theorem out_at : k1_pay9 (F := Ideal) acc l (ix3 0 r a) = Ideal.div (acc (ix2 r a)) (l (ix2 r 0)) := by
  unfold k1_pay9
  refine (shapeCast_ab_1ab_apply _ _ 0 r a).trans ((divf_apply _ _ _).trans ?_)
  rw [broadcastTo_a1_ab_apply]

include h1 h3

theorem masked_m :
    k1_pay8 (F := Ideal) (k1_pay18 w1 w3 X Kb m) (ix2 r 0)
      = OnlineSoftmax.stepM (m (ix2 r 0)) (tileMasked w1.toNat w3.toNat X Kb r) :=
  stepM_at (pay16_at w1 w3 h1 h3 X Kb r) m

theorem masked_l :
    k1_pay6 (F := Ideal) (k1_pay21 w1 w3 X Kb m m l) (ix2 r 0)
      = OnlineSoftmax.stepL (m (ix2 r 0)) (l (ix2 r 0)) (tileMasked w1.toNat w3.toNat X Kb r) :=
  stepL_at (pay16_at w1 w3 h1 h3 X Kb r) m l

theorem masked_acc :
    k1_pay7 (F := Ideal) (k1_pay17 Vb) (k1_pay19 w1 w3 X Kb m m) (k1_pay20 w1 w3 X Kb m) acc (ix2 r a)
      = OnlineSoftmax.stepA (m (ix2 r 0)) (acc (ix2 r a)) (tileMasked w1.toNat w3.toNat X Kb r) (tileCol Vb a) :=
  stepA_at (pay16_at w1 w3 h1 h3 X Kb r) m acc Vb a

theorem first_masked_m :
    k1_pay8 (F := Ideal) (k1_pay18 w1 w3 X Kb (k1_pay1 (F := Ideal))) (ix2 r 0)
      = OnlineSoftmax.stepM ⊥ (tileMasked w1.toNat w3.toNat X Kb r) := by
  rw [masked_m w1 w3 h1 h3, pay1_at]

theorem first_masked_l :
    k1_pay6 (F := Ideal) (k1_pay21 w1 w3 X Kb (k1_pay1 (F := Ideal)) (k1_pay1 (F := Ideal)) (k1_pay2 (F := Ideal))) (ix2 r 0)
      = OnlineSoftmax.stepL ⊥ 0 (tileMasked w1.toNat w3.toNat X Kb r) := by
  rw [masked_l w1 w3 h1 h3, pay1_at, pay2_at]

theorem first_masked_acc :
    k1_pay7 (F := Ideal) (k1_pay17 Vb) (k1_pay19 w1 w3 X Kb (k1_pay1 (F := Ideal)) (k1_pay1 (F := Ideal))) (k1_pay20 w1 w3 X Kb (k1_pay1 (F := Ideal))) (k1_pay3 (F := Ideal))
        (ix2 r a)
      = OnlineSoftmax.stepA ⊥ 0 (tileMasked w1.toNat w3.toNat X Kb r) (tileCol Vb a) := by
  rw [masked_acc w1 w3 h1 h3, pay1_at, pay3_at]

end

end Cert.KernelIdeal.StepValue
-- ==== Proof.KiSpecBridge.lean ====
/- Tiles cut out of whole arrays: when the blocks hold rows qt * 512 + r of Q and kt * 256 + j of K and V, the tile's scores, masked
   scores and value column are the row's masked scores and value column at the keys of tile kt. -/
import proofs.«401152_j23330262351892_3_alg».proof.Proof.AttnSpec
import proofs.«401152_j23330262351892_3_alg».proof.Proof.AttnTile

namespace Cert.SpecBridge

open Cert.AttnSpec Cert.AttnTile Idealize.ShloMosaic Idealize.ShloMosaic.ValueIdx

theorem key_lt {kt : ℕ} (hkt : kt < 8) (j : Fin 256) : kt * 256 + j.val < 2048 := by
  have := j.isLt
  omega

theorem tileCol_eq (Vv : Arr3) (b : Fin 4) (kt : ℕ) (hkt : kt < 8)
    (Vb : (⟨3, ![1, 256, 1024]⟩ : Shape).Idx → EReal) (a : Fin 1024)
    (hV : ∀ (j : Fin 256) (jj : Fin 2048), jj.val = kt * 256 + j.val → Vb (ix3 0 j a) = Vv b jj a) :
    tileCol Vb a = tileVal Vv b a kt := by
  funext j
  unfold tileCol tileVal
  rw [dif_pos (key_lt hkt j)]
  exact hV j ⟨_, key_lt hkt j⟩ rfl

variable (Q K : Arr3) (b : Fin 4) (qt kt : ℕ)
  (X : (⟨3, ![1, 512, 1024]⟩ : Shape).Idx → EReal) (Kb : (⟨3, ![1, 256, 1024]⟩ : Shape).Idx → EReal)
  (r : Fin 512) (i : Fin 2048) (hi : i.val = qt * 512 + r.val)
  (hX : ∀ a : Fin 1024, X (ix3 0 r a) = Q b i a)
  (hK : ∀ (j : Fin 256) (a : Fin 1024) (jj : Fin 2048), jj.val = kt * 256 + j.val → Kb (ix3 0 j a) = K b jj a)
  (hkt : kt < 8)
include hi hX hK hkt

/-- The tile's mask, key kt * 256 + j after query qt * 512 + r, is the row's mask, and under it the inner products agree. -/
theorem tileMasked_eq : tileMasked qt kt X Kb r = tileScore Q K b i kt := by
  funext j
  unfold tileMasked tileScore score tileRaw rawScore
  rw [dif_pos (key_lt hkt j), hi]
  refine if_congr Iff.rfl (congrArg (· * _) (Finset.sum_congr rfl fun a _ => ?_)) rfl
  rw [hX a, hK j a ⟨_, key_lt hkt j⟩ rfl]

/-- A key tile wholly before the query tile has no masked key. -/
theorem tileRaw_eq_tileScore (hlow : kt < 2 * qt) : tileRaw X Kb r = tileScore Q K b i kt := by
  rw [← tileMasked_eq Q K b qt kt X Kb r i hi hX hK hkt]
  funext j
  have hj := j.isLt
  unfold tileMasked
  rw [if_pos (by omega)]

end Cert.SpecBridge
-- ==== Proof.TileSoftmax.lean ====
/- Causal attention row by row with the keys visited in tiles of 256: row qi * 512 + r is complete after its first 2 * qi + 2 tiles, since every
   key outside them lies after the query and weighs exp ⊥ = 0. Along the way, sums of products of reals are real. -/
import proofs.«401152_j23330262351892_3_alg».proof.Proof.AttnSpec
import proofs.«401152_j23330262351892_3_alg».proof.Proof.LibOnlineSoftmax
import Mathlib.Data.EReal.Operations

namespace Cert.TileSoftmax

open Cert.AttnSpec
open Idealize.ShloMosaic
open scoped BigOperators

theorem sum_mul_real {ι : Type} (t : Finset ι) (f g : ι → EReal)
    (hf : ∀ i, ∃ r : ℝ, f i = (r : EReal)) (hg : ∀ i, ∃ r : ℝ, g i = (r : EReal)) :
    ∃ r : ℝ, ∑ i ∈ t, f i * g i = (r : EReal) := by
  choose f' hf' using hf
  choose g' hg' using hg
  refine ⟨∑ i ∈ t, f' i * g' i, ?_⟩
  rw [← OnlineSoftmax.coe_sum]
  refine Finset.sum_congr rfl fun i _ => ?_
  rw [hf' i, hg' i, EReal.coe_mul]

theorem proj_real (x : Arr3) (w : Mat) (hx : ∀ b s e, ∃ r : ℝ, x b s e = (r : EReal))
    (hw : ∀ e a, ∃ r : ℝ, w e a = (r : EReal)) :
    ∀ b s a, ∃ r : ℝ, proj x w b s a = (r : EReal) := fun b s a =>
  sum_mul_real Finset.univ (fun e => x b s e) (fun e => w e a) (fun e => hx b s e)
    (fun e => hw e a)

theorem rawScore_real (q k : Arr3) (hq : ∀ b s a, ∃ r : ℝ, q b s a = (r : EReal))
    (hk : ∀ b s a, ∃ r : ℝ, k b s a = (r : EReal)) :
    ∀ b i j, ∃ r : ℝ, rawScore q k b i j = (r : EReal) := fun b i j => by
  obtain ⟨r, hr⟩ := sum_mul_real Finset.univ (fun a => q b i a) (fun a => k b j a)
    (fun a => hq b i a) (fun a => hk b j a)
  exact ⟨r * (1 / 32 : ℝ), by rw [rawScore, hr, EReal.coe_mul]⟩

theorem score_realOrBot (q k : Arr3) (hq : ∀ b s a, ∃ r : ℝ, q b s a = (r : EReal))
    (hk : ∀ b s a, ∃ r : ℝ, k b s a = (r : EReal)) (b : Fin 4) (i j : Fin 2048) :
    OnlineSoftmax.RealOrBot (score q k b i j) := by
  unfold score
  split_ifs
  · exact Or.inr (rawScore_real q k hq hk b i j)
  · exact Or.inl rfl

/-- Position j of tile t, among the first n tiles, is key t * 256 + j. -/
def key (n : ℕ) (hn : n * 256 ≤ 2048) : Fin n × Fin 256 → Fin 2048 := fun p =>
  ⟨p.1.val * 256 + p.2.val, by
    have h1 := p.1.isLt
    have h2 := p.2.isLt
    have h3 : (p.1.val + 1) * 256 ≤ n * 256 := Nat.mul_le_mul_right 256 h1
    omega⟩

theorem key_val (n : ℕ) (hn : n * 256 ≤ 2048) (p : Fin n × Fin 256) :
    (key n hn p).val = p.1.val * 256 + p.2.val := rfl

theorem key_injective (n : ℕ) (hn : n * 256 ≤ 2048) : Function.Injective (key n hn) := by
  intro p p' h
  have h' : p.1.val * 256 + p.2.val = p'.1.val * 256 + p'.2.val := by
    rw [← key_val n hn p, ← key_val n hn p', h]
  have h2 := p.2.isLt
  have h2' := p'.2.isLt
  refine Prod.ext (Fin.ext ?_) (Fin.ext ?_) <;> omega

theorem mem_range_key (n : ℕ) (hn : n * 256 ≤ 2048) (x : Fin 2048) (hx : x.val < n * 256) :
    x ∈ Set.range (key n hn) := by
  refine ⟨(⟨x.val / 256, ?_⟩, ⟨x.val % 256, Nat.mod_lt _ (by norm_num)⟩), Fin.ext ?_⟩
  · exact Nat.div_lt_of_lt_mul (by rw [Nat.mul_comm]; exact hx)
  · rw [key_val]
    exact Nat.div_add_mod' x.val 256

/-- The recurrence over the first 2 * qi + 2 tiles of a row gives the row's softmax-weighted sum over all 2048 keys. -/
theorem tile_attend (q k v : Arr3) (hq : ∀ b s a, ∃ r : ℝ, q b s a = (r : EReal))
    (hk : ∀ b s a, ∃ r : ℝ, k b s a = (r : EReal)) (hv : ∀ b s a, ∃ r : ℝ, v b s a = (r : EReal))
    (b : Fin 4) (qi : ℕ) (hqi : qi < 4) (r : Fin 512) (a : Fin 1024) (i : Fin 2048)
    (hi : i.val = qi * 512 + r.val) :
    Ideal.div (OnlineSoftmax.run (B := 256) (tileScore q k b i) (tileVal v b a) (2 * qi + 2)).2.2
              (OnlineSoftmax.run (B := 256) (tileScore q k b i) (tileVal v b a) (2 * qi + 2)).2.1
      = attend q k v b i a := by
  have hn : (2 * qi + 2) * 256 ≤ 2048 := by omega
  have hr := r.isLt
  have hlt : ∀ p : Fin (2 * qi + 2) × Fin 256, p.1.val * 256 + p.2.val < 2048 := fun p =>
    (key (2 * qi + 2) hn p).isLt
  have hS : ∀ p : Fin (2 * qi + 2) × Fin 256,
      score q k b i (key (2 * qi + 2) hn p) = tileScore q k b i p.1.val p.2 := fun p => by
    unfold tileScore
    rw [dif_pos (hlt p)]
    rfl
  have hV : ∀ p : Fin (2 * qi + 2) × Fin 256,
      (fun x => v b x a) (key (2 * qi + 2) hn p) = tileVal v b a p.1.val p.2 := fun p => by
    unfold tileVal
    rw [dif_pos (hlt p)]
    rfl
  have hout : ∀ x, x ∉ Set.range (key (2 * qi + 2) hn) → score q k b i x = ⊥ := fun x hx => by
    have hge : ¬ x.val < (2 * qi + 2) * 256 := fun h => hx (mem_range_key _ hn x h)
    unfold score
    rw [if_neg (by omega)]
  have hs : ∀ t < 2 * qi + 2, ∀ j, OnlineSoftmax.RealOrBot (tileScore q k b i t j) :=
    fun t _ j => by
      unfold tileScore
      split_ifs
      · exact score_realOrBot q k hq hk b i _
      · exact Or.inl rfl
  have h0 : ∃ j, ∃ ρ : ℝ, tileScore q k b i 0 j = (ρ : EReal) := by
    obtain ⟨ρ, hρ⟩ := rawScore_real q k hq hk b i ⟨0 * 256 + (0 : Fin 256).val, by norm_num⟩
    refine ⟨0, ρ, ?_⟩
    unfold tileScore
    rw [dif_pos (by norm_num), score, if_pos (by simp), hρ]
  exact OnlineSoftmax.run_eq_softmax (tileScore q k b i) (tileVal v b a) (2 * qi + 2) (by omega)
    (score q k b i) (fun x => v b x a) (key (2 * qi + 2) hn) (key_injective _ hn) hS hV hout hs h0
    (fun x => hv b x a)

end Cert.TileSoftmax
-- ==== Proof.KiAttnValue.lean ====
/- What the attention call leaves in its output array. By induction over the key tiles of a query tile each row's running maximum,
   normaliser and accumulator follow the online-softmax recurrence; after the last tile their quotient is the row's attention. -/
import proofs.«401152_j23330262351892_3_alg».proof.Proof.KiAttnCover
import proofs.«401152_j23330262351892_3_alg».proof.Proof.KiPieces
import proofs.«401152_j23330262351892_3_alg».proof.Proof.KiStepValue
import proofs.«401152_j23330262351892_3_alg».proof.Proof.KiSpecBridge
import proofs.«401152_j23330262351892_3_alg».proof.Proof.TileSoftmax

noncomputable section

namespace Cert.KernelIdeal.HandValue

open Cert.KernelIdeal Cert.KernelIdeal.Gen Cert.KernelIdeal.Hand
open Idealize.ShloMosaic Idealize.ShloMosaic.TcCoe Idealize.ShloMosaic.ValueIdx
open Cert.AttnSpec Cert.AttnTile Cert.KernelIdeal.StepValue

/-- Which key tile a step of each kind is on, and that a later key tile follows the one before on the same query tile. -/
theorem kind_facts : ∀ s < 20,
    (kindOf s = .firstDiag ∨ kindOf s = .firstPlain → ktOf s = 0)
    ∧ (kindOf s = .plain ∨ kindOf s = .diag ∨ kindOf s = .last → ktOf s ≠ 0)
    ∧ (kindOf s = .firstPlain ∨ kindOf s = .plain → ktOf s < 2 * qtOf s)
    ∧ (kindOf s = .last → ktOf s + 1 = 2 * qtOf s + 2)
    ∧ (ktOf s ≠ 0 → 1 ≤ s ∧ qtOf (s - 1) = qtOf s ∧ ktOf (s - 1) + 1 = ktOf s)
    ∧ qtOf s < 4 ∧ ktOf s < 8 := by
  decide

variable (V : (c : Dev nD) → (b : Ref sig .tc) → Buf (Elt Ideal) ((c : Thread nD τ).loc b)) (c : Dev nD)

abbrev bQ (t : Fin cfgA.N) : Vec Ideal S1x512x1024 .bf16 := blk1 V c 0 t
abbrev bK (t : Fin cfgA.N) : Vec Ideal S1x256x1024 .bf16 := blk1 V c 1 t
abbrev bV (t : Fin cfgA.N) : Vec Ideal S1x256x1024 .bf16 := blk1 V c 2 t

/-- The running maximum, normaliser and accumulator entry of row r, column a. -/
def rowSt (p : St) (r : Fin 512) (a : Fin 1024) : EReal × EReal × EReal := (p.m (ix2 r 0), p.l (ix2 r 0), p.a (ix2 r a))

/-- At a last step the output tile's entry is the new accumulator entry over the new normaliser. -/
theorem st_last_o (t : Fin cfgA.N) (p : St) (hk : kindOf (t.val % 20) = .last) (r : Fin 512) (a : Fin 1024) :
    (stepSt V c t p).o (ix3 0 r a) = Ideal.div ((stepSt V c t p).a (ix2 r a)) ((stepSt V c t p).l (ix2 r 0)) := by
  rw [stepSt_last V c t p hk]
  dsimp only
  rw [show backO (RLast V c t hk p).1.2.2.2 = _ from
      (View.read_writes_eq_canon VO VO.junk _ fun _ => coverLast_o ..).trans
        ((View.read_writes_eq_canon (msO t).view (msO t).view.junk _ fun _ => coverLast_o ..).symm.trans (back_last_o ..)),
    show backL (RLast V c t hk p).1.2.1 = _ from back_last_l .., show backA (RLast V c t hk p).1.2.2.1 = _ from back_last_a .., out_at]

variable (Q K Vv : Arr3)
  (hQ : ∀ b s a, (V c main_v3_0 : S4x2048x1024.Idx → EReal) (ix3 b s a) = Q b s a)
  (hK : ∀ b s a, (V c main_v3_1 : S4x2048x1024.Idx → EReal) (ix3 b s a) = K b s a)
  (hV : ∀ b s a, (V c main_v3_2 : S4x2048x1024.Idx → EReal) (ix3 b s a) = Vv b s a)
include hQ hK hV

/-- Row r of the step's query tile is row qt * 512 + r of its batch of Q. -/
theorem bQ_row (t : Fin cfgA.N) (r : Fin 512) (a : Fin 1024) (bb : Fin 4) (i : Fin 2048)
    (hbb : bb.val = t.val / 20) (hi : i.val = qtOf (t.val % 20) * 512 + r.val) : bQ V c t (ix3 0 r a) = Q bb i a := by
  obtain ⟨⟨h0, h1, h2⟩, -⟩ := idxA_facts t
  rw [← hQ]
  unfold bQ blk1
  rw [View.read_apply]
  show V c main_v3_0 _ = V c main_v3_0 _
  congr 1
  funext d
  apply Fin.ext
  match d with
  | ⟨0, _⟩ => show (cfgA.win 0).index t 0 * 1 + 1 * 0 = bb.val; omega
  | ⟨1, _⟩ => show (cfgA.win 0).index t 1 * 512 + 1 * r.val = i.val; omega
  | ⟨2, _⟩ => show (cfgA.win 0).index t 2 * 1024 + 1 * a.val = a.val; omega

/-- Row j of the step's key tile is row kt * 256 + j of its batch of K. -/
theorem bK_row (t : Fin cfgA.N) (j : Fin 256) (a : Fin 1024) (bb : Fin 4) (jj : Fin 2048)
    (hbb : bb.val = t.val / 20) (hjj : jj.val = ktOf (t.val % 20) * 256 + j.val) : bK V c t (ix3 0 j a) = K bb jj a := by
  obtain ⟨-, ⟨h0, h1, h2⟩, -⟩ := idxA_facts t
  rw [← hK]
  unfold bK blk1
  rw [View.read_apply]
  show V c main_v3_1 _ = V c main_v3_1 _
  congr 1
  funext d
  apply Fin.ext
  match d with
  | ⟨0, _⟩ => show (cfgA.win 1).index t 0 * 1 + 1 * 0 = bb.val; omega
  | ⟨1, _⟩ => show (cfgA.win 1).index t 1 * 256 + 1 * j.val = jj.val; omega
  | ⟨2, _⟩ => show (cfgA.win 1).index t 2 * 1024 + 1 * a.val = a.val; omega

/-- Row j of the step's value tile is row kt * 256 + j of its batch of Vv. -/
theorem bV_row (t : Fin cfgA.N) (j : Fin 256) (a : Fin 1024) (bb : Fin 4) (jj : Fin 2048)
    (hbb : bb.val = t.val / 20) (hjj : jj.val = ktOf (t.val % 20) * 256 + j.val) : bV V c t (ix3 0 j a) = Vv bb jj a := by
  obtain ⟨-, -, ⟨h0, h1, h2⟩, -⟩ := idxA_facts t
  rw [← hV]
  unfold bV blk1
  rw [View.read_apply]
  show V c main_v3_2 _ = V c main_v3_2 _
  congr 1
  funext d
  apply Fin.ext
  match d with
  | ⟨0, _⟩ => show (cfgA.win 2).index t 0 * 1 + 1 * 0 = bb.val; omega
  | ⟨1, _⟩ => show (cfgA.win 2).index t 1 * 256 + 1 * j.val = jj.val; omega
  | ⟨2, _⟩ => show (cfgA.win 2).index t 2 * 1024 + 1 * a.val = a.val; omega

/-- One step continues the recurrence on the row: from the state after kt tiles to the state after kt + 1. -/
theorem step_inv (t : Fin cfgA.N) (p : St) (r : Fin 512) (a : Fin 1024) (bb : Fin 4) (i : Fin 2048)
    (hbb : bb.val = t.val / 20) (hi : i.val = qtOf (t.val % 20) * 512 + r.val)
    (hp : ktOf (t.val % 20) ≠ 0 →
      rowSt p r a = OnlineSoftmax.run (B := 256) (tileScore Q K bb i) (tileVal Vv bb a) (ktOf (t.val % 20))) :
    rowSt (stepSt V c t p) r a
      = OnlineSoftmax.run (B := 256) (tileScore Q K bb i) (tileVal Vv bb a) (ktOf (t.val % 20) + 1) := by
  obtain ⟨f0, fN, fR, -, -, hq4, hk8⟩ := kind_facts _ (Nat.mod_lt t.val (by decide))
  obtain ⟨hwq, hwk⟩ := words_facts c t
  have h1 : (wq c t).toNat < 4 := by rw [hwq]; exact hq4
  have h3 : (wk c t).toNat < 8 := by rw [hwk]; exact hk8
  have hX := fun a => bQ_row V c Q K Vv hQ hK hV t r a bb i hbb hi
  have hY := fun j a jj => bK_row V c Q K Vv hQ hK hV t j a bb jj hbb
  have hM := Cert.SpecBridge.tileMasked_eq Q K bb _ _ (bQ V c t) (bK V c t) r i hi hX hY hk8
  have hR := Cert.SpecBridge.tileRaw_eq_tileScore Q K bb _ _ (bQ V c t) (bK V c t) r i hi hX hY hk8
  have hC := Cert.SpecBridge.tileCol_eq Vv bb _ hk8 (bV V c t) a fun j jj => bV_row V c Q K Vv hQ hK hV t j a bb jj hbb
  rw [OnlineSoftmax.run_succ]
  rcases kind_total (t.val % 20) with hk | hk | hk | hk | hk
  · rw [stepSt_firstDiag V c t p hk]
    unfold rowSt
    dsimp only
    rw [show backM (RFirstDiag V c t hk).1.1 = _ from back_fdiag_m .., show backL (RFirstDiag V c t hk).1.2.1 = _ from back_fdiag_l ..,
      show backA (RFirstDiag V c t hk).1.2.2 = _ from back_fdiag_a ..,
      first_masked_m _ _ h1 h3, first_masked_l _ _ h1 h3, first_masked_acc _ _ h1 h3, hwq, hwk, hM, hC, f0 (.inl hk)]
    rfl
  · rw [stepSt_last V c t p hk]
    unfold rowSt
    dsimp only
    rw [show backM (RLast V c t hk p).1.1 = _ from back_last_m .., show backL (RLast V c t hk p).1.2.1 = _ from back_last_l ..,
      show backA (RLast V c t hk p).1.2.2.1 = _ from back_last_a ..,
      masked_m _ _ h1 h3, masked_l _ _ h1 h3, masked_acc _ _ h1 h3, hwq, hwk, hM, hC, ← hp (fN (.inr (.inr hk)))]
    rfl
  · rw [stepSt_firstPlain V c t p hk]
    unfold rowSt
    dsimp only
    rw [show backM (RFirstPlain V c t hk).1.1 = _ from back_fplain_m .., show backL (RFirstPlain V c t hk).1.2.1 = _ from back_fplain_l ..,
      show backA (RFirstPlain V c t hk).1.2.2 = _ from back_fplain_a ..,
      first_plain_m, first_plain_l, first_plain_acc, hR (fR (.inl hk)), hC, f0 (.inr hk)]
    rfl
  · rw [stepSt_plain V c t p hk]
    unfold rowSt
    dsimp only
    rw [show backM (RPlain V c t hk p).1.1 = _ from back_plain_m .., show backL (RPlain V c t hk p).1.2.1 = _ from back_plain_l ..,
      show backA (RPlain V c t hk p).1.2.2 = _ from back_plain_a ..,
      plain_m, plain_l, plain_acc, hR (fR (.inr hk)), hC, ← hp (fN (.inl hk))]
    rfl
  · rw [stepSt_diag V c t p hk]
    unfold rowSt
    dsimp only
    rw [show backM (RDiag V c t hk p).1.1 = _ from back_diag_m .., show backL (RDiag V c t hk p).1.2.1 = _ from back_diag_l ..,
      show backA (RDiag V c t hk p).1.2.2 = _ from back_diag_a ..,
      masked_m _ _ h1 h3, masked_l _ _ h1 h3, masked_acc _ _ h1 h3, hwq, hwk, hM, hC, ← hp (fN (.inr (.inl hk)))]
    rfl

/-- After the step on key tile kt, row i holds the recurrence's state after kt + 1 tiles. -/
theorem inv : ∀ (n : ℕ) (hn : n < cfgA.N) (r : Fin 512) (a : Fin 1024) (bb : Fin 4) (i : Fin 2048),
      bb.val = n / 20 → i.val = qtOf (n % 20) * 512 + r.val →
      rowSt (stAt V c n hn) r a
        = OnlineSoftmax.run (B := 256) (tileScore Q K bb i) (tileVal Vv bb a) (ktOf (n % 20) + 1)
  | 0, hn, r, a, bb, i, hbb, hi =>
    step_inv V c Q K Vv hQ hK hV ⟨0, hn⟩ St.any r a bb i hbb hi (fun h => absurd (show ktOf (0 % 20) = 0 by decide) h)
  | n + 1, hn, r, a, bb, i, hbb, hi => by
    refine step_inv V c Q K Vv hQ hK hV ⟨n + 1, hn⟩ (stAt V c n (Nat.lt_of_succ_lt hn)) r a bb i hbb hi (fun hne => ?_)
    obtain ⟨hs1, hq, hk⟩ := (kind_facts _ (Nat.mod_lt (n + 1) (by decide))).2.2.2.2.1 hne
    rw [show (n + 1) % 20 - 1 = n % 20 by omega] at hq hk
    rw [inv n (Nat.lt_of_succ_lt hn) r a bb i (by omega) (by rw [hi, hq]), hk]

variable (hq : ∀ b s a, ∃ r : ℝ, Q b s a = (r : EReal)) (hk : ∀ b s a, ∃ r : ℝ, K b s a = (r : EReal))
  (hv : ∀ b s a, ∃ r : ℝ, Vv b s a = (r : EReal))
include hq hk hv

/-- At a last step 2 * qt + 2 tiles have been visited, every key not after the query: the output tile holds the rows' attention. -/
theorem o_last (t : Fin cfgA.N) (hkd : kindOf (t.val % 20) = .last) (r : Fin 512) (a : Fin 1024) (bb : Fin 4) (i : Fin 2048)
    (hbb : bb.val = t.val / 20) (hi : i.val = qtOf (t.val % 20) * 512 + r.val) :
    (stAt V c t.val t.isLt).o (ix3 0 r a) = attend Q K Vv bb i a := by
  obtain ⟨-, fN, -, fL, fP, hq4, -⟩ := kind_facts _ (Nat.mod_lt t.val (by decide))
  have hs1 := (fP (fN (.inr (.inr hkd)))).1
  have hinv := inv V c Q K Vv hQ hK hV t.val t.isLt r a bb i hbb hi
  rw [stAt_pos V c t (by omega)] at hinv ⊢
  rw [st_last_o V c t _ hkd r a]
  have e1 := congrArg (fun x : EReal × EReal × EReal => x.2.1) hinv
  have e2 := congrArg (fun x : EReal × EReal × EReal => x.2.2) hinv
  dsimp only [rowSt] at e1 e2
  rw [e1, e2, fL hkd]
  exact Cert.TileSoftmax.tile_attend Q K Vv hq hk hv bb _ hq4 r a i hi

/-- After the 80 steps the output array is the attention of the q, k and v arrays, entry by entry. -/
theorem attn_final (b : Fin 4) (i : Fin 2048) (a : Fin 1024) :
    (dat1 V c).arrAt 3 cfgA.N (ix3 b i a) = attend Q K Vv b i a :=
  attn_arr_of_last V c (attend Q K Vv) (o_last V c Q K Vv hQ hK hV hq hk hv) b i a

end Cert.KernelIdeal.HandValue
end
-- ==== Proof.KiFinite.lean ====
import proofs.«401152_j23330262351892_3_alg».proof.Defs
import proofs.«401152_j23330262351892_3_alg».proof.Proof.Gen.Pre_finite_inputs
import Idealize.ShloMosaic.Lib.ReduceAll
import Idealize.ShloMosaic.Lib.ValueIdx

/- The precondition says every entry of the four argument arrays has absolute value below ⊤; such an extended
   real is neither ⊥ nor ⊤, so it is a real number. -/

noncomputable section

namespace Cert.KiFinite

open Idealize.ShloMosaic Idealize.ShloMosaic.ValueIdx Cert.Pre_finite_inputs

instance : Subsingleton S_.Idx := ⟨fun _ _ => funext fun d => d.elim0⟩

theorem real_of_abs_lt (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  induction x using EReal.rec with
  | bot => exact absurd h (by simp [Ideal.cmp])
  | coe r => exact ⟨r, rfl⟩
  | top => exact absurd h (by simp [Ideal.cmp])

/-- When the conjunction over all entries of |v| < ⊤ holds, every entry of v is a real number. -/
theorem all_real {s : Shape} {axes : List (Fin s.rank)} (v : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf v) (broadcastInDim s ![] hb (constant (F := Ideal) S_ .f32 0x7F800000#32)))
          init hr hu ix0 = 1#1)
    (idx : s.Idx) : ∃ r : ℝ, v idx = (r : EReal) :=
  real_of_abs_lt (v idx) ((Host.reduce_andi_all _ _ hr hu ix0 e idx).symm ▸ rfl)

theorem inputs_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ idx, ∃ r : ℝ, m ((c.tc : Thread Cert.KernelIdeal.nD Cert.KernelIdeal.τ).loc Cert.KernelIdeal.main_arg0) idx = (r : EReal))
    ∧ (∀ idx, ∃ r : ℝ, m ((c.tc : Thread Cert.KernelIdeal.nD Cert.KernelIdeal.τ).loc Cert.KernelIdeal.main_arg1) idx = (r : EReal))
    ∧ (∀ idx, ∃ r : ℝ, m ((c.tc : Thread Cert.KernelIdeal.nD Cert.KernelIdeal.τ).loc Cert.KernelIdeal.main_arg2) idx = (r : EReal))
    ∧ (∀ idx, ∃ r : ℝ, m ((c.tc : Thread Cert.KernelIdeal.nD Cert.KernelIdeal.τ).loc Cert.KernelIdeal.main_arg3) idx = (r : EReal)) := by
  have h0 := congrFun (h c) ix0
  dsimp only [fn, fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨all_real _ _ _ _ _ h0', all_real _ _ _ _ _ h1, all_real _ _ _ _ _ h2, all_real _ _ _ _ _ h3⟩

end Cert.KiFinite

end
-- ==== Proof.KiResult.lean ====
import proofs.«401152_j23330262351892_3_alg».proof.Proof.KiMain
import proofs.«401152_j23330262351892_3_alg».proof.Proof.KiProjValue
import proofs.«401152_j23330262351892_3_alg».proof.Proof.KiAttnValue
import proofs.«401152_j23330262351892_3_alg».proof.Proof.KiFinite
import proofs.«401152_j23330262351892_3_alg».proof.Proof.TileSoftmax

/- The attention call finds q, k and v equal to the three projections of the arguments, real under the
   precondition, so the result array is the specification's result of the four argument arrays. -/

noncomputable section

namespace Cert.KernelIdeal.HandValue

open Cert.KernelIdeal Cert.KernelIdeal.Hand Idealize.ShloMosaic Idealize.ShloMosaic.ValueIdx Cert.TileSoftmax

theorem kernel_result (m : (ℓ : Loc nD τ sig) → Buf (Elt Ideal) ℓ) (ρ : Dev nD → PrngReg)
    (h : Cert.Pre_KernelIdeal (hPre_finite_inputs := Cert.Pre_finite_inputs.Gen.facts) m) (c : Dev nD)
    (b : Fin 4) (i : Fin 2048) (a : Fin 1024) :
    outFinal m ρ c (ix3 b i a)
      = Cert.AttnSpec.result (fun b s e => m ((c.tc : Thread nD τ).loc main_arg0) (ix3 b s e))
          (fun e a => m ((c.tc : Thread nD τ).loc main_arg1) (ix2 e a))
          (fun e a => m ((c.tc : Thread nD τ).loc main_arg2) (ix2 e a))
          (fun e a => m ((c.tc : Thread nD τ).loc main_arg3) (ix2 e a)) b i a := by
  obtain ⟨hx, hwq, hwk, hwv⟩ := Cert.KiFinite.inputs_real (hP := Cert.Pre_finite_inputs.Gen.facts) m h c
  show (dat1 (V2 m ρ) c).arrAt 3 cfgA.N (ix3 b i a) = Cert.AttnSpec.attend _ _ _ b i a
  exact attn_final (V2 m ρ) c _ _ _
    (fun b s a => by rw [V2_q m ρ c, q_final (V1 m ρ) c b s a, V1_arg0 m ρ c, V1_w0 m ρ c]; rfl)
    (fun b s a => by rw [V2_k m ρ c, k_final (V1 m ρ) c b s a, V1_arg0 m ρ c, V1_w1 m ρ c]; rfl)
    (fun b s a => by rw [V2_v m ρ c, v_final (V1 m ρ) c b s a, V1_arg0 m ρ c, V1_w2 m ρ c]; rfl)
    (proj_real _ _ (fun b s e => hx (ix3 b s e)) fun e a => hwq (ix2 e a))
    (proj_real _ _ (fun b s e => hx (ix3 b s e)) fun e a => hwk (ix2 e a))
    (proj_real _ _ (fun b s e => hx (ix3 b s e)) fun e a => hwv (ix2 e a)) b i a

end Cert.KernelIdeal.HandValue

end
-- ==== Proof.RefStages.lean ====
import proofs.«401152_j23330262351892_3_alg».proof.Proof.Gen.ReferenceIdeal.Read
import proofs.«401152_j23330262351892_3_alg».proof.Proof.AttnSpec
import Idealize.ShloMosaic.Lib.StableHlo.Predicate

/- The plain causal attention read stage by stage at an entry named by its coordinates: projections, scaled and
   masked scores, row maximum, exponentials and their sum, weighted value rows; together the specification's result. -/

noncomputable section

namespace Cert.RefStages

open Cert.ReferenceIdeal Cert.ReferenceIdeal.Gen Cert.ReferenceIdeal.Read Idealize.ShloMosaic Idealize.ShloMosaic.ValueIdx
open Cert.AttnSpec

theorem ofBits_negInf : Ideal.ofBits .f32 0xFF800000#32 = (⊥ : EReal) := by
  simp [Ideal.ofBits, Ideal.ieee]

theorem ofBits_1024 : Ideal.ofBits .f32 0x44800000#32 = ((1024 : ℝ) : EReal) := by
  simp [Ideal.ofBits, Ideal.ieee, -EReal.coe_mul]; norm_num

theorem sqrt_1024 : Ideal.sqrt ((1024 : ℝ) : EReal) = ((32 : ℝ) : EReal) := by
  rw [Ideal.sqrt_coe, if_neg (by norm_num)]
  congr 1
  rw [show (1024 : ℝ) = 32 ^ 2 by norm_num]
  exact Real.sqrt_sq (by norm_num)

/-- Indices below 2048 are non-negative as signed 32-bit integers, so the signed comparison compares the numbers. -/
theorem mask_bit (i j : Fin 2048) :
    IntOp.cmpi .sge (IntOp.addi (BitVec.ofNat 32 i.val) 0#32) (BitVec.ofNat 32 j.val)
      = if j.val ≤ i.val then 1#1 else 0#1 := by
  have t (k : Fin 2048) : (BitVec.ofNat 32 k.val).toNat = k.val := by
    rw [BitVec.toNat_ofNat]; exact Nat.mod_eq_of_lt (by have := k.isLt; omega)
  have key := StableHlo.Predicate.sge_iff_toNat (a := BitVec.ofNat 32 i.val) (b := BitVec.ofNat 32 j.val)
    (by rw [t]; have := i.isLt; omega) (by rw [t]; have := j.isLt; omega)
  rw [t, t] at key
  rw [show IntOp.addi (BitVec.ofNat 32 i.val) 0#32 = BitVec.ofNat 32 i.val from BitVec.add_zero _]
  by_cases h : j.val ≤ i.val
  · rw [if_pos h]; exact key.2 h
  · rw [if_neg h]; exact eq_zero_of_ne_one fun e => h (key.1 e)

section Indices
variable (b : Fin 4) (i j s : Fin 2048) (a e : Fin 1024) (z : Fin 1)

theorem lidx_v0_ix : lidx_main_v0 (ix3 b s a) e = ix3 b s e := eq_ix3 _
theorem ridx_v0_ix : ridx_main_v0 (ix3 b s a) e = ix2 e a := eq_ix2 _
theorem lidx_v3_ix : lidx_main_v3 (ix3 b i j) a = ix3 b i a := eq_ix3 _
theorem ridx_v3_ix : ridx_main_v3 (ix3 b i j) a = ix3 b j a := eq_ix3 _
theorem idx_call1_v1_ix : idx_main_call1_v1 (ix3 b i j) = ix3 (0 : Fin 1) i j := eq_ix3 _
theorem idx_v9_ix : idx_main_v9 (ix3 z i j) = ix2 i j := eq_ix2 _
theorem idx_v15_ix : idx_main_v15 (ix3 b i j) = ix3 b i (0 : Fin 1) := eq_ix3 _
theorem idx_v14_ix : idx_main_v14 (ix3 b i z) = ix2 b i := eq_ix2 _
theorem idx_v20_ix : idx_main_v20 (ix3 b i j) = ix3 b i (0 : Fin 1) := eq_ix3 _
theorem idx_v19_ix : idx_main_v19 (ix3 b i z) = ix2 b i := eq_ix2 _
theorem idx_v18_ix : idx_main_v18 (ix2 b i) j = ix3 b i j := eq_ix3 _
theorem lidx_v22_ix : lidx_main_v22 (ix3 b i a) j = ix3 b i j := eq_ix3 _
theorem ridx_v22_ix : ridx_main_v22 (ix3 b i a) j = ix3 b j a := eq_ix3 _

theorem red2 : S4x2048x2048.Reduces [2] S4x2048 := by decide

theorem lift_ix : red2.lift (ix2 b i) j = ix3 b i j := eq_ix3 _

end Indices

section Stages
variable (x : (⟨S4x2048x1024, .f32⟩ : BufTy).Contents (Elt Ideal))
  (w wq wk wv : (⟨S1024x1024, .f32⟩ : BufTy).Contents (Elt Ideal)) (b : Fin 4) (i j s : Fin 2048) (a : Fin 1024)

abbrev arr (x : (⟨S4x2048x1024, .f32⟩ : BufTy).Contents (Elt Ideal)) : Arr3 := fun b s e => x (ix3 b s e)
abbrev mat (w : (⟨S1024x1024, .f32⟩ : BufTy).Contents (Elt Ideal)) : Mat := fun e a => w (ix2 e a)

/-- The masked scores of the projected queries against the projected keys. -/
abbrev sc : Fin 4 → Fin 2048 → Fin 2048 → EReal := score (proj (arr x) (mat wq)) (proj (arr x) (mat wk))
/-- The maximum of a row of scores. -/
abbrev mx : EReal := (Finset.univ : Finset (Fin 2048)).fold max ⊥ (sc x wq wk b i)
/-- The exponential of a score less its row's maximum. -/
abbrev ex : EReal := Ideal.exp (sc x wq wk b i j - mx x wq wk b i)

/-- The three projections are one operation on different matrices: a sum over the feature axis. -/
theorem q_at : val_main_v0 (F := Ideal) x w (ix3 b s a) = proj (arr x) (mat w) b s a := by
  rw [val_main_v0_apply]
  exact Finset.sum_congr rfl fun e _ => by rw [lidx_v0_ix, ridx_v0_ix]

theorem k_at : val_main_v1 (F := Ideal) x w (ix3 b s a) = proj (arr x) (mat w) b s a := q_at x w b s a

theorem v_at : val_main_v2 (F := Ideal) x w (ix3 b s a) = proj (arr x) (mat w) b s a := q_at x w b s a

theorem scale_at (idx : S4x2048x2048.Idx) : val_main_v5 (F := Ideal) idx = ((32 : ℝ) : EReal) := by
  rw [val_main_v5_apply, val_main_v4_apply, val_main_cst_apply, Ideal.hostUnary_sqrt_def, Ideal.ofBits_def,
    ofBits_1024, sqrt_1024]

theorem raw_at : val_main_v6 (F := Ideal) x wq wk (ix3 b i j)
    = rawScore (proj (arr x) (mat wq)) (proj (arr x) (mat wk)) b i j := by
  rw [val_main_v6_apply, scale_at, Ideal.hostDivf_def, Ideal.div_coe (by norm_num), val_main_v3_apply]
  unfold rawScore
  congr 1
  exact Finset.sum_congr rfl fun a _ => by rw [lidx_v3_ix, ridx_v3_ix, q_at, k_at]

theorem mask_at : val_main_call1_v1 (F := Ideal) (ix3 b i j) = if j.val ≤ i.val then 1#1 else 0#1 := by
  rw [val_main_call1_v1_apply, idx_call1_v1_ix, val_main_v9_apply, idx_v9_ix, val_main_v8_apply,
    val_main_call0_v4_apply, val_main_call0_v2_apply, val_main_call0_v0_apply, val_main_call0_v1_apply,
    val_main_call0_c_apply, val_main_call0_v3_apply, val_main_v7_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [mask_bit]
  by_cases h : j.val ≤ i.val
  · rw [if_pos h]; exact select_one _ _
  · rw [if_neg h]; exact select_zero _ _

theorem score_at : val_main_v10 (F := Ideal) x wq wk (ix3 b i j) = sc x wq wk b i j := by
  rw [val_main_v10_apply, mask_at, raw_at, val_main_call1_v2_apply, val_main_call1_v0_apply,
    val_main_cst_0_apply, Ideal.ofBits_def, ofBits_negInf]
  unfold sc score
  by_cases h : j.val ≤ i.val
  · rw [if_pos h, if_pos h]; exact select_one _ _
  · rw [if_neg h, if_neg h]; exact select_zero _ _

theorem rowmax_at : val_main_v13 (F := Ideal) x wq wk (ix2 b i) = mx x wq wk b i := by
  rw [val_main_v13_apply, val_main_v12_apply, val_main_cst_2_apply, Ideal.ofBits_def, ofBits_negInf,
    Ideal.maximumf_def, max_eq_right bot_le]
  unfold val_main_v11
  rw [Host.reduce_eq_fold_single FloatOps.maximumf _ _ reducesTo_S4x2048x2048_S4x2048_d2 red2 h_S_,
    val_main_cst_1_apply, Ideal.ofBits_def, ofBits_negInf]
  show (Finset.univ : Finset (Fin 2048)).fold max ⊥ (val_main_v10 (F := Ideal) x wq wk ∘ red2.lift (ix2 b i)) = _
  exact Finset.fold_congr fun (j : Fin 2048) _ => by
    show val_main_v10 (F := Ideal) x wq wk (red2.lift (ix2 b i) j) = _
    rw [lift_ix, score_at]

theorem exp_at : val_main_v17 (F := Ideal) x wq wk (ix3 b i j) = ex x wq wk b i j := by
  rw [val_main_v17_apply, Ideal.hostUnary_exp_def, val_main_v16_apply, Ideal.subf_def, score_at,
    val_main_v15_apply, idx_v15_ix, val_main_v14_apply, idx_v14_ix, rowmax_at]

theorem denom_at : val_main_v20 (F := Ideal) x wq wk (ix3 b i j) = ∑ y : Fin 2048, ex x wq wk b i y := by
  rw [val_main_v20_apply, idx_v20_ix, val_main_v19_apply, idx_v19_ix, val_main_v18_apply, val_main_cst_3_apply,
    Ideal.ofBits_def, Ideal.ofBits_zero_f32, zero_add]
  exact Finset.sum_congr rfl fun y _ => by rw [idx_v18_ix, exp_at]

end Stages

/-- The reference's result array at (b, i, a) is the specification's result of the four argument arrays. -/
theorem ref_result_run (m : (ℓ : Loc nD τ sig) → Buf (Elt Ideal) ℓ) (c : Dev nD) (b : Fin 4) (i : Fin 2048)
    (a : Fin 1024) :
    Cert.ReferenceIdeal.Value.res_main_v22 m c (ix3 b i a)
      = Cert.AttnSpec.result (fun b s e => m ((c.tc : Thread nD τ).loc main_arg0) (ix3 b s e))
          (fun e a => m ((c.tc : Thread nD τ).loc main_arg1) (ix2 e a))
          (fun e a => m ((c.tc : Thread nD τ).loc main_arg2) (ix2 e a))
          (fun e a => m ((c.tc : Thread nD τ).loc main_arg3) (ix2 e a)) b i a := by
  rw [val_main_v22_eq]
  show (_ : EReal) = _
  rw [val_main_v22_apply]
  unfold result attend
  exact Finset.sum_congr rfl fun j _ => by
    rw [lidx_v22_ix, ridx_v22_ix, val_main_v21_apply, Ideal.hostDivf_def, exp_at, denom_at, v_at]

end Cert.RefStages

end
-- ==== Proof.lean ====
/- A causal self-attention layer computed two ways agrees on the extended reals when the inputs are real.
   One way takes each row of masked scores whole: its maximum M, the weights exp (s_j - M) over their sum, applied
   to the value rows.  The other visits the keys tile by tile with a running maximum m and totals relative to m;
   raising m to m' rescales the totals by exp (m - m'), since exp (m - m') * exp (s - m) = exp (s - m'), so after
   the last tile the quotient is the whole-row softmax; a masked key scores ⊥ and weighs exp ⊥ = 0. -/
import proofs.«401152_j23330262351892_3_alg».proof.Proof.Gen.Kernel
import proofs.«401152_j23330262351892_3_alg».proof.Proof.Gen.KernelIdeal
import proofs.«401152_j23330262351892_3_alg».proof.Proof.Gen.ReferenceIdeal
import proofs.«401152_j23330262351892_3_alg».proof.Proof.KMain
import proofs.«401152_j23330262351892_3_alg».proof.Proof.KiResult
import proofs.«401152_j23330262351892_3_alg».proof.Proof.RefStages

noncomputable section

namespace Cert.Proof

open Idealize.ShloMosaic Idealize.ShloMosaic.ValueIdx Idealize.SL.Sem

theorem frame_k : Cert.frame_Kernel := fun m ρ _ =>
  (θ_run Cert.Kernel.defs _ _).mono (fun _ h c => (h c).2) (Cert.Kernel.Hand.run_main m ρ)

theorem frame_ki : Cert.frame_KernelIdeal := fun m ρ _ =>
  (θ_run Cert.KernelIdeal.defs _ _).mono (fun _ h c => (h c).2) (Cert.KernelIdeal.Hand.run_main m ρ)

theorem frame_ri : Cert.frame_ReferenceIdeal := fun m ρ _ =>
  (θ_run Cert.ReferenceIdeal.defs _ _).mono (fun _ h c => (h c).2) (Cert.ReferenceIdeal.Value.run (F := Ideal) m ρ)

/-- The masking constant is a named constant read as ⊥. -/
theorem preserves : Cert.preserves_Kernel_KernelIdeal :=
  IdealRules.named_const.statement Cert.KernelIdeal.κ "neg_big" .f32 0xFF333332#32 ⊥ rfl

/-- Both result arrays are, entry by entry, the specification's result of the four arguments. -/
theorem algebraic : Cert.algebraic_KernelIdeal_ReferenceIdeal := by
  intro m ρ m' ρ' hpre hagree
  refine ⟨fun c => Cert.KernelIdeal.Hand.outFinal m ρ c, Cert.KernelIdeal.Hand.run_main m ρ, ?_⟩
  refine (θ_run Cert.ReferenceIdeal.defs _ _).mono (fun _ h c => ⟨(h c).1.trans ?_, (h c).2⟩)
    (Cert.ReferenceIdeal.Value.run (F := Ideal) m' ρ')
  refine funext fun idx => ?_
  obtain ⟨b, i, a, rfl⟩ : ∃ (b : Fin 4) (i : Fin 2048) (a : Fin 1024), idx = ix3 b i a :=
    ⟨idx 0, idx 1, idx 2, eq_ix3 idx⟩
  rw [Cert.RefStages.ref_result_run m' c b i a, (hagree c).1, (hagree c).2.1, (hagree c).2.2.1, (hagree c).2.2.2]
  exact (Cert.KernelIdeal.HandValue.kernel_result m ρ hpre c b i a).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
